-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v588) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S27x64x64 : Shape := ⟨3, ![27, 64, 64]⟩
abbrev S64 : Shape := ⟨1, ![64]⟩
abbrev S27x131072 : Shape := ⟨2, ![27, 131072]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_
  bcast_S_S27x131072 : S_.BroadcastsInDim S27x131072 (![] : Fin 0 → Fin S27x131072.rank)
  reducesTo_S27x131072_S_d0_1 : S27x131072.ReducesTo [0, 1] S_

variable [Facts]

def fn_part1 {F : FTy → Type} [FloatOps F] (main_arg5 : IVec S27x131072 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S27x131072 32 := broadcastInDim S27x131072 ![] bcast_S_S27x131072 main_c_6
  let main_v20 : IVec S27x131072 1 := cmpi .sge main_arg5 main_v19
  let main_c_7 : IVec S_ 1 := constantI S_ 1 1#1
  let main_v21 : IVec S_ 1 := (fun x v => Host.reduce IntOp.andi x v reducesTo_S27x131072_S_d0_1 h_S_) main_v20 main_c_7
  let main_v22 : IVec S_ 1 := andi main_v18 main_v21
  main_v22

def fn {F : FTy → Type} [FloatOps F] (main_arg0 : FVec F S524288x64 .f32) (main_arg1 : FVec F S27x64x64 .f32) (main_arg2 : FVec F S64 .f32) (main_arg3 : FVec F S64 .f32) (main_arg4 : IVec S27x131072 32) (main_arg5 : IVec S27x131072 32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S524288x64 : Shape := ⟨2, ![524288, 64]⟩
abbrev S27x64x64 : Shape := ⟨3, ![27, 64, 64]⟩
abbrev S64 : Shape := ⟨1, ![64]⟩
abbrev S27x131072 : Shape := ⟨2, ![27, 131072]⟩
abbrev S_ : Shape := ⟨0, ![]⟩
abbrev S27x64x128 : Shape := ⟨3, ![27, 64, 128]⟩
abbrev S27x128x128 : Shape := ⟨3, ![27, 128, 128]⟩
abbrev S27x131072x1 : Shape := ⟨3, ![27, 131072, 1]⟩
abbrev S27x131072x64 : Shape := ⟨3, ![27, 131072, 64]⟩
abbrev S27x65536x128 : Shape := ⟨3, ![27, 65536, 128]⟩
abbrev S1x8192x128 : Shape := ⟨3, ![1, 8192, 128]⟩
abbrev S1x128x128 : Shape := ⟨3, ![1, 128, 128]⟩
abbrev S8192x128 : Shape := ⟨2, ![8192, 128]⟩
abbrev S128x128 : Shape := ⟨2, ![128, 128]⟩
abbrev S3538944x64 : Shape := ⟨2, ![3538944, 64]⟩
abbrev S3538944 : Shape := ⟨1, ![3538944]⟩
abbrev S3538944x1 : Shape := ⟨2, ![3538944, 1]⟩
abbrev S262144x128 : Shape := ⟨2, ![262144, 128]⟩
abbrev S1x128 : Shape := ⟨2, ![1, 128]⟩
abbrev S128 : Shape := ⟨1, ![128]⟩
abbrev S1x64 : Shape := ⟨2, ![1, 64]⟩

abbrev nBuf : Space → Nat
  | .hbm => 59
  | .vmem => 20
  | .smem => 0
  | _ => 0

abbrev bufTy : (tb : Table) → Fin (tcTables nBuf tb) → BufTy
  | .hbm, ⟨0, _⟩ => ⟨S524288x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x131072, .i32⟩
  | .hbm, ⟨5, _⟩ => ⟨S27x131072, .i32⟩
  | .hbm, ⟨6, _⟩ => ⟨S524288x64, .bf16⟩
  | .hbm, ⟨7, _⟩ => ⟨S27x64x64, .bf16⟩
  | .hbm, ⟨8, _⟩ => ⟨S_, .bf16⟩
  | .hbm, ⟨9, _⟩ => ⟨S27x64x64, .bf16⟩
  | .hbm, ⟨10, _⟩ => ⟨S27x64x128, .bf16⟩
  | .hbm, ⟨11, _⟩ => ⟨S27x64x128, .bf16⟩
  | .hbm, ⟨12, _⟩ => ⟨S27x128x128, .bf16⟩
  | .hbm, ⟨13, _⟩ => ⟨S_, .i32⟩
  | .hbm, ⟨14, _⟩ => ⟨S27x131072, .i32⟩
  | .hbm, ⟨15, _⟩ => ⟨S27x131072, .i1⟩
  | .hbm, ⟨16, _⟩ => ⟨S_, .i32⟩
  | .hbm, ⟨17, _⟩ => ⟨S27x131072, .i32⟩
  | .hbm, ⟨18, _⟩ => ⟨S27x131072, .i32⟩
  | .hbm, ⟨19, _⟩ => ⟨S27x131072, .i32⟩
  | .hbm, ⟨20, _⟩ => ⟨S27x131072x1, .i32⟩
  | .hbm, ⟨21, _⟩ => ⟨S27x131072x64, .bf16⟩
  | .hbm, ⟨22, _⟩ => ⟨S27x65536x128, .bf16⟩
  | .hbm, ⟨23, _⟩ => ⟨S27x65536x128, .bf16⟩
  | .hbm, ⟨24, _⟩ => ⟨S3538944x64, .bf16⟩
  | .hbm, ⟨25, _⟩ => ⟨S3538944x64, .f32⟩
  | .hbm, ⟨26, _⟩ => ⟨S3538944, .i32⟩
  | .hbm, ⟨27, _⟩ => ⟨S_, .f32⟩
  | .hbm, ⟨28, _⟩ => ⟨S524288x64, .f32⟩
  | .hbm, ⟨29, _⟩ => ⟨S3538944x1, .i32⟩
  | .hbm, ⟨30, _⟩ => ⟨S524288x64, .f32⟩
  | .hbm, ⟨31, _⟩ => ⟨S262144x128, .f32⟩
  | .hbm, ⟨32, _⟩ => ⟨S1x128, .f32⟩
  | .hbm, ⟨33, _⟩ => ⟨S1x128, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S_, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S262144x128, .f32⟩
  | .hbm, ⟨58, _⟩ => ⟨S524288x64, .f32⟩
  | .local _ .vmem, ⟨0, _⟩ => ⟨S1x8192x128, .bf16⟩
  | .local _ .vmem, ⟨1, _⟩ => ⟨S1x8192x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S8192x128, .f32⟩
  | .local _ .vmem, ⟨7, _⟩ => ⟨S8192x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S8192x128, .f32⟩
  | .local _ .vmem, ⟨13, _⟩ => ⟨S8192x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S8192x128, .f32⟩
  | .local _ .vmem, ⟨19, _⟩ => ⟨S8192x128, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨2, ![27, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  bcast_S_S27x64x64 : S_.BroadcastsInDim S27x64x64 (![] : Fin 0 → Fin S27x64x64.rank)
  concatenates_S27x64x64_S27x64x64_S27x64x128_d2 : Shape.Concatenates [S27x64x64, S27x64x64] S27x64x128 2
  concatenates_S27x64x128_S27x64x128_S27x128x128_d1 : Shape.Concatenates [S27x64x128, S27x64x128] S27x128x128 1
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  shapeCasts_S27x131072x64_S27x65536x128 : S27x131072x64.ShapeCasts S27x65536x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S8192x128_S1x8192x128 : S8192x128.ShapeCasts S1x8192x128
  packedbf16_S1x8192x128_S1x8192x128_0_0_0 : (Rect.unit (s := S1x8192x128) ![0, 0, 0] S1x8192x128.size inb_S1x8192x128_S1x8192x128_0_0_0).PackedRows (EltTy.packing .bf16)
  shapeCasts_S27x65536x128_S3538944x64 : S27x65536x128.ShapeCasts S3538944x64
  shapeCasts_S27x131072_S3538944 : S27x131072.ShapeCasts S3538944
  bcast_S_S524288x64 : S_.BroadcastsInDim S524288x64 (![] : Fin 0 → Fin S524288x64.rank)
  bcast_S3538944_S3538944x1_0 : S3538944.BroadcastsInDim S3538944x1 (![0] : Fin 1 → Fin S3538944x1.rank)
  shapeCasts_S524288x64_S262144x128 : S524288x64.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  slices_S1x128_S1x64_0_0 : S1x128.Slices ![0, 0] S1x64
  slices_S1x128_S1x64_0_64 : S1x128.Slices ![0, 64] S1x64
  bcast_S_S1x64 : S_.BroadcastsInDim S1x64 (![] : Fin 0 → Fin S1x64.rank)
  shapeCasts_S64_S1x64 : S64.ShapeCasts S1x64
  concatenates_S1x64_S1x64_S1x128_d1 : Shape.Concatenates [S1x64, S1x64] S1x128 1
  broadcasts_S1x128_S8192x128 : S1x128.Broadcasts S8192x128
  shapeCasts_S262144x128_S524288x64 : S262144x128.ShapeCasts S524288x64
  gather_S524288x64_S27x131072x1_S27x131072x64_2_0_n_n_0_2_164_wf : GatherDims.WF S524288x64 S27x131072x1 S27x131072x64 [2] [0] [] [0] [] 2 ![1, 64]
  dot_S8192x128_S128x128_S8192x128_1_0_0_1_n_n_wf : DotDims.WF S8192x128 S128x128 S8192x128 [1] [0] [0] [1] [] []
  scatter_S524288x64_S3538944x1_S3538944x64_1_0_0_1_wf : ScatterDims.WF S524288x64 S3538944x1 S3538944x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S27x65536x128.size a
  hwx0_0 : ∀ i : grid0.Coords, EltTy.bits .bf16 = 32 ∨ (Rect.block (s := S27x65536x128) S1x8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .bf16 = 32 ∨ (Rect.block (s := S27x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S27x65536x128.size a
  hwx0_2 : ∀ i : grid0.Coords, EltTy.bits .bf16 = 32 ∨ (Rect.block (s := S27x65536x128) S1x8192x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S262144x128.size a
  hwx2_0 : ∀ i : grid2.Coords, EltTy.bits .f32 = 32 ∨ (Rect.block (s := S262144x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x128.size a ≤ S262144x128.size a
  hwx2_5 : ∀ i : grid2.Coords, EltTy.bits .f32 = 32 ∨ (Rect.block (s := S262144x128) S8192x128.size (cc2_transform_5 i) (hinb2_5 i)).WholeWords (EltTy.packing .f32)

variable [Facts₀]

def gather_S524288x64_S27x131072x1_S27x131072x64_2_0_n_n_0_2_164 : GatherDims S524288x64 S27x131072x1 S27x131072x64 where
  offsetDims := [2]
  collapsedSliceDims := [0]
  operandBatchingDims := []
  startIndicesBatchingDims := []
  startIndexMap := [0]
  indexVectorDim := 2
  sliceSizes := ![1, 64]
  wf := gather_S524288x64_S27x131072x1_S27x131072x64_2_0_n_n_0_2_164_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S524288x64_S3538944x1_S3538944x64_1_0_0_1 : ScatterDims S524288x64 S3538944x1 S3538944x64 where
  updateWindowDims := [1]
  insertedWindowDims := [0]
  scatterDimsToOperandDims := [0]
  indexVectorDim := 1
  wf := scatter_S524288x64_S3538944x1_S3538944x64_1_0_0_1_wf

abbrev win0_0 : Pipeline.Window sig grid0 :=
  Pipeline.Window.ofSpec (Memref.whole main_v13) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v21) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S8192x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S524288x64 : Shape := ⟨2, ![524288, 64]⟩
abbrev S27x64x64 : Shape := ⟨3, ![27, 64, 64]⟩
abbrev S64 : Shape := ⟨1, ![64]⟩
abbrev S27x131072 : Shape := ⟨2, ![27, 131072]⟩
abbrev S_ : Shape := ⟨0, ![]⟩
abbrev S1x131072 : Shape := ⟨2, ![1, 131072]⟩
abbrev S131072 : Shape := ⟨1, ![131072]⟩
abbrev S131072x1 : Shape := ⟨2, ![131072, 1]⟩
abbrev S131072x64 : Shape := ⟨2, ![131072, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 730
  | .vmem => 0
  | .smem => 0
  | _ => 0

abbrev hbmTy0_0 (i : Nat) : BufTy := match i % 128 with
  | 0 => ⟨S524288x64, .f32⟩
  | 1 => ⟨S27x64x64, .f32⟩
  | 2 => ⟨S64, .f32⟩
  | 3 => ⟨S64, .f32⟩
  | 4 => ⟨S27x131072, .i32⟩
  | 5 => ⟨S27x131072, .i32⟩
  | 6 => ⟨S_, .f32⟩
  | 7 => ⟨S524288x64, .f32⟩
  | 8 => ⟨S1x131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S131072x1, .i32⟩
  | 18 => ⟨S131072x64, .f32⟩
  | 19 => ⟨S1x64x64, .f32⟩
  | 20 => ⟨S64x64, .f32⟩
  | 21 => ⟨S131072x64, .f32⟩
  | 22 => ⟨S1x131072, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S524288x64, .f32⟩
  | 33 => ⟨S1x131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x64, .f32⟩
  | 44 => ⟨S1x64x64, .f32⟩
  | 45 => ⟨S64x64, .f32⟩
  | 46 => ⟨S131072x64, .f32⟩
  | 47 => ⟨S1x131072, .i32⟩
  | 48 => ⟨S131072, .i32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S131072x1, .i32⟩
  | 57 => ⟨S524288x64, .f32⟩
  | 58 => ⟨S1x131072, .i32⟩
  | 59 => ⟨S131072, .i32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x64, .f32⟩
  | 69 => ⟨S1x64x64, .f32⟩
  | 70 => ⟨S64x64, .f32⟩
  | 71 => ⟨S131072x64, .f32⟩
  | 72 => ⟨S1x131072, .i32⟩
  | 73 => ⟨S131072, .i32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S524288x64, .f32⟩
  | 83 => ⟨S1x131072, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S131072x64, .f32⟩
  | 94 => ⟨S1x64x64, .f32⟩
  | 95 => ⟨S64x64, .f32⟩
  | 96 => ⟨S131072x64, .f32⟩
  | 97 => ⟨S1x131072, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S131072x1, .i32⟩
  | 107 => ⟨S524288x64, .f32⟩
  | 108 => ⟨S1x131072, .i32⟩
  | 109 => ⟨S131072, .i32⟩
  | 110 => ⟨S_, .i32⟩
  | 111 => ⟨S131072, .i32⟩
  | 112 => ⟨S131072, .i1⟩
  | 113 => ⟨S_, .i32⟩
  | 114 => ⟨S131072, .i32⟩
  | 115 => ⟨S131072, .i32⟩
  | 116 => ⟨S131072, .i32⟩
  | 117 => ⟨S131072x1, .i32⟩
  | 118 => ⟨S131072x64, .f32⟩
  | 119 => ⟨S1x64x64, .f32⟩
  | 120 => ⟨S64x64, .f32⟩
  | 121 => ⟨S131072x64, .f32⟩
  | 122 => ⟨S1x131072, .i32⟩
  | 123 => ⟨S131072, .i32⟩
  | 124 => ⟨S_, .i32⟩
  | 125 => ⟨S131072, .i32⟩
  | 126 => ⟨S131072, .i1⟩
  | 127 => ⟨S_, .i32⟩
  | _ => ⟨S524288x64, .f32⟩

abbrev hbmTy0_1 (i : Nat) : BufTy := match i % 128 with
  | 0 => ⟨S131072, .i32⟩
  | 1 => ⟨S131072, .i32⟩
  | 2 => ⟨S131072, .i32⟩
  | 3 => ⟨S131072x1, .i32⟩
  | 4 => ⟨S524288x64, .f32⟩
  | 5 => ⟨S1x131072, .i32⟩
  | 6 => ⟨S131072, .i32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072x64, .f32⟩
  | 16 => ⟨S1x64x64, .f32⟩
  | 17 => ⟨S64x64, .f32⟩
  | 18 => ⟨S131072x64, .f32⟩
  | 19 => ⟨S1x131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S524288x64, .f32⟩
  | 30 => ⟨S1x131072, .i32⟩
  | 31 => ⟨S131072, .i32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072x64, .f32⟩
  | 41 => ⟨S1x64x64, .f32⟩
  | 42 => ⟨S64x64, .f32⟩
  | 43 => ⟨S131072x64, .f32⟩
  | 44 => ⟨S1x131072, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S524288x64, .f32⟩
  | 55 => ⟨S1x131072, .i32⟩
  | 56 => ⟨S131072, .i32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S131072x64, .f32⟩
  | 66 => ⟨S1x64x64, .f32⟩
  | 67 => ⟨S64x64, .f32⟩
  | 68 => ⟨S131072x64, .f32⟩
  | 69 => ⟨S1x131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S524288x64, .f32⟩
  | 80 => ⟨S1x131072, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x64, .f32⟩
  | 91 => ⟨S1x64x64, .f32⟩
  | 92 => ⟨S64x64, .f32⟩
  | 93 => ⟨S131072x64, .f32⟩
  | 94 => ⟨S1x131072, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S131072x1, .i32⟩
  | 104 => ⟨S524288x64, .f32⟩
  | 105 => ⟨S1x131072, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S131072x1, .i32⟩
  | 115 => ⟨S131072x64, .f32⟩
  | 116 => ⟨S1x64x64, .f32⟩
  | 117 => ⟨S64x64, .f32⟩
  | 118 => ⟨S131072x64, .f32⟩
  | 119 => ⟨S1x131072, .i32⟩
  | 120 => ⟨S131072, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S524288x64, .f32⟩

abbrev hbmTy0_2 (i : Nat) : BufTy := match i % 128 with
  | 0 => ⟨S131072x1, .i32⟩
  | 1 => ⟨S524288x64, .f32⟩
  | 2 => ⟨S1x131072, .i32⟩
  | 3 => ⟨S131072, .i32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x64, .f32⟩
  | 13 => ⟨S1x64x64, .f32⟩
  | 14 => ⟨S64x64, .f32⟩
  | 15 => ⟨S131072x64, .f32⟩
  | 16 => ⟨S1x131072, .i32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S524288x64, .f32⟩
  | 27 => ⟨S1x131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x64, .f32⟩
  | 38 => ⟨S1x64x64, .f32⟩
  | 39 => ⟨S64x64, .f32⟩
  | 40 => ⟨S131072x64, .f32⟩
  | 41 => ⟨S1x131072, .i32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S524288x64, .f32⟩
  | 52 => ⟨S1x131072, .i32⟩
  | 53 => ⟨S131072, .i32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S131072x64, .f32⟩
  | 63 => ⟨S1x64x64, .f32⟩
  | 64 => ⟨S64x64, .f32⟩
  | 65 => ⟨S131072x64, .f32⟩
  | 66 => ⟨S1x131072, .i32⟩
  | 67 => ⟨S131072, .i32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S524288x64, .f32⟩
  | 77 => ⟨S1x131072, .i32⟩
  | 78 => ⟨S131072, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S131072x64, .f32⟩
  | 88 => ⟨S1x64x64, .f32⟩
  | 89 => ⟨S64x64, .f32⟩
  | 90 => ⟨S131072x64, .f32⟩
  | 91 => ⟨S1x131072, .i32⟩
  | 92 => ⟨S131072, .i32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S524288x64, .f32⟩
  | 102 => ⟨S1x131072, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072x64, .f32⟩
  | 113 => ⟨S1x64x64, .f32⟩
  | 114 => ⟨S64x64, .f32⟩
  | 115 => ⟨S131072x64, .f32⟩
  | 116 => ⟨S1x131072, .i32⟩
  | 117 => ⟨S131072, .i32⟩
  | 118 => ⟨S_, .i32⟩
  | 119 => ⟨S131072, .i32⟩
  | 120 => ⟨S131072, .i1⟩
  | 121 => ⟨S_, .i32⟩
  | 122 => ⟨S131072, .i32⟩
  | 123 => ⟨S131072, .i32⟩
  | 124 => ⟨S131072, .i32⟩
  | 125 => ⟨S131072x1, .i32⟩
  | 126 => ⟨S524288x64, .f32⟩
  | 127 => ⟨S1x131072, .i32⟩
  | _ => ⟨S524288x64, .f32⟩

abbrev hbmTy0_3 (i : Nat) : BufTy := match i % 128 with
  | 0 => ⟨S131072, .i32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x64, .f32⟩
  | 10 => ⟨S1x64x64, .f32⟩
  | 11 => ⟨S64x64, .f32⟩
  | 12 => ⟨S131072x64, .f32⟩
  | 13 => ⟨S1x131072, .i32⟩
  | 14 => ⟨S131072, .i32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S131072x1, .i32⟩
  | 23 => ⟨S524288x64, .f32⟩
  | 24 => ⟨S1x131072, .i32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072x64, .f32⟩
  | 35 => ⟨S1x64x64, .f32⟩
  | 36 => ⟨S64x64, .f32⟩
  | 37 => ⟨S131072x64, .f32⟩
  | 38 => ⟨S1x131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S524288x64, .f32⟩
  | 49 => ⟨S1x131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x64, .f32⟩
  | 60 => ⟨S1x64x64, .f32⟩
  | 61 => ⟨S64x64, .f32⟩
  | 62 => ⟨S131072x64, .f32⟩
  | 63 => ⟨S1x131072, .i32⟩
  | 64 => ⟨S131072, .i32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S524288x64, .f32⟩
  | 74 => ⟨S1x131072, .i32⟩
  | 75 => ⟨S131072, .i32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x64, .f32⟩
  | 85 => ⟨S1x64x64, .f32⟩
  | 86 => ⟨S64x64, .f32⟩
  | 87 => ⟨S131072x64, .f32⟩
  | 88 => ⟨S1x131072, .i32⟩
  | 89 => ⟨S131072, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S524288x64, .f32⟩
  | 99 => ⟨S1x131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S131072x1, .i32⟩
  | 109 => ⟨S131072x64, .f32⟩
  | 110 => ⟨S1x64x64, .f32⟩
  | 111 => ⟨S64x64, .f32⟩
  | 112 => ⟨S131072x64, .f32⟩
  | 113 => ⟨S1x131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S524288x64, .f32⟩
  | 124 => ⟨S1x131072, .i32⟩
  | 125 => ⟨S131072, .i32⟩
  | 126 => ⟨S_, .i32⟩
  | 127 => ⟨S131072, .i32⟩
  | _ => ⟨S524288x64, .f32⟩

abbrev hbmTy0_4 (i : Nat) : BufTy := match i % 128 with
  | 0 => ⟨S131072, .i1⟩
  | 1 => ⟨S_, .i32⟩
  | 2 => ⟨S131072, .i32⟩
  | 3 => ⟨S131072, .i32⟩
  | 4 => ⟨S131072, .i32⟩
  | 5 => ⟨S131072x1, .i32⟩
  | 6 => ⟨S131072x64, .f32⟩
  | 7 => ⟨S1x64x64, .f32⟩
  | 8 => ⟨S64x64, .f32⟩
  | 9 => ⟨S131072x64, .f32⟩
  | 10 => ⟨S1x131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S131072x1, .i32⟩
  | 20 => ⟨S524288x64, .f32⟩
  | 21 => ⟨S1x131072, .i32⟩
  | 22 => ⟨S131072, .i32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x64, .f32⟩
  | 32 => ⟨S1x64x64, .f32⟩
  | 33 => ⟨S64x64, .f32⟩
  | 34 => ⟨S131072x64, .f32⟩
  | 35 => ⟨S1x131072, .i32⟩
  | 36 => ⟨S131072, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S524288x64, .f32⟩
  | 46 => ⟨S1x131072, .i32⟩
  | 47 => ⟨S131072, .i32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S131072x1, .i32⟩
  | 56 => ⟨S131072x64, .f32⟩
  | 57 => ⟨S1x64x64, .f32⟩
  | 58 => ⟨S64x64, .f32⟩
  | 59 => ⟨S131072x64, .f32⟩
  | 60 => ⟨S1x131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S524288x64, .f32⟩
  | 71 => ⟨S1x131072, .i32⟩
  | 72 => ⟨S131072, .i32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S131072x1, .i32⟩
  | 81 => ⟨S131072x64, .f32⟩
  | 82 => ⟨S1x64x64, .f32⟩
  | 83 => ⟨S64x64, .f32⟩
  | 84 => ⟨S131072x64, .f32⟩
  | 85 => ⟨S1x131072, .i32⟩
  | 86 => ⟨S131072, .i32⟩
  | 87 => ⟨S_, .i32⟩
  | 88 => ⟨S131072, .i32⟩
  | 89 => ⟨S131072, .i1⟩
  | 90 => ⟨S_, .i32⟩
  | 91 => ⟨S131072, .i32⟩
  | 92 => ⟨S131072, .i32⟩
  | 93 => ⟨S131072, .i32⟩
  | 94 => ⟨S131072x1, .i32⟩
  | 95 => ⟨S524288x64, .f32⟩
  | 96 => ⟨S1x131072, .i32⟩
  | 97 => ⟨S131072, .i32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072x64, .f32⟩
  | 107 => ⟨S1x64x64, .f32⟩
  | 108 => ⟨S64x64, .f32⟩
  | 109 => ⟨S131072x64, .f32⟩
  | 110 => ⟨S1x131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S524288x64, .f32⟩
  | 121 => ⟨S1x131072, .i32⟩
  | 122 => ⟨S131072, .i32⟩
  | 123 => ⟨S_, .i32⟩
  | 124 => ⟨S131072, .i32⟩
  | 125 => ⟨S131072, .i1⟩
  | 126 => ⟨S_, .i32⟩
  | 127 => ⟨S131072, .i32⟩
  | _ => ⟨S524288x64, .f32⟩

abbrev hbmTy0_5 (i : Nat) : BufTy := match i % 128 with
  | 0 => ⟨S131072, .i32⟩
  | 1 => ⟨S131072, .i32⟩
  | 2 => ⟨S131072x1, .i32⟩
  | 3 => ⟨S131072x64, .f32⟩
  | 4 => ⟨S1x64x64, .f32⟩
  | 5 => ⟨S64x64, .f32⟩
  | 6 => ⟨S131072x64, .f32⟩
  | 7 => ⟨S1x131072, .i32⟩
  | 8 => ⟨S131072, .i32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S524288x64, .f32⟩
  | 18 => ⟨S1x131072, .i32⟩
  | 19 => ⟨S131072, .i32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x64, .f32⟩
  | 29 => ⟨S1x64x64, .f32⟩
  | 30 => ⟨S64x64, .f32⟩
  | 31 => ⟨S131072x64, .f32⟩
  | 32 => ⟨S1x131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S524288x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S524288x64, .f32⟩
  | 56 => ⟨S524288x64, .f32⟩
  | 57 => ⟨S524288x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S524288x64, .f32⟩
  | 73 => ⟨S524288x64, .f32⟩
  | 74 => ⟨S_, .f32⟩
  | 75 => ⟨S64, .f32⟩
  | 76 => ⟨S64, .f32⟩
  | 77 => ⟨S64, .f32⟩
  | 78 => ⟨S1x64, .f32⟩
  | 79 => ⟨S524288x64, .f32⟩
  | 80 => ⟨S524288x64, .f32⟩
  | 81 => ⟨S1x64, .f32⟩
  | 82 => ⟨S524288x64, .f32⟩
  | 83 => ⟨S524288x64, .f32⟩
  | 84 => ⟨S1x64, .f32⟩
  | 85 => ⟨S524288x64, .f32⟩
  | 86 => ⟨S524288x64, .f32⟩
  | 87 => ⟨S_, .f32⟩
  | 88 => ⟨S524288x64, .f32⟩
  | 89 => ⟨S524288x64, .f32⟩
  | _ => ⟨S524288x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S524288x64, .f32⟩

abbrev bufTy : (tb : Table) → Fin (tcTables nBuf tb) → BufTy
  | .hbm, ⟨i, _⟩ => hbmTy i
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_11 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_13 : Ref sig .tc := ⟨.hbm, 99, rfl⟩
abbrev main_v78 : Ref sig .tc := ⟨.hbm, 100, rfl⟩
abbrev main_v79 : Ref sig .tc := ⟨.hbm, 101, rfl⟩
abbrev main_c_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_15 : Ref sig .tc := ⟨.hbm, 110, rfl⟩
abbrev main_v87 : Ref sig .tc := ⟨.hbm, 111, rfl⟩
abbrev main_v88 : Ref sig .tc := ⟨.hbm, 112, rfl⟩
abbrev main_c_16 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_17 : Ref sig .tc := ⟨.hbm, 124, rfl⟩
abbrev main_v99 : Ref sig .tc := ⟨.hbm, 125, rfl⟩
abbrev main_v100 : Ref sig .tc := ⟨.hbm, 126, rfl⟩
abbrev main_c_18 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_c_19 : Ref sig .tc := ⟨.hbm, 135, rfl⟩
abbrev main_v108 : Ref sig .tc := ⟨.hbm, 136, rfl⟩
abbrev main_v109 : Ref sig .tc := ⟨.hbm, 137, rfl⟩
abbrev main_c_20 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_c_21 : Ref sig .tc := ⟨.hbm, 149, rfl⟩
abbrev main_v120 : Ref sig .tc := ⟨.hbm, 150, rfl⟩
abbrev main_v121 : Ref sig .tc := ⟨.hbm, 151, rfl⟩
abbrev main_c_22 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_c_23 : Ref sig .tc := ⟨.hbm, 160, rfl⟩
abbrev main_v129 : Ref sig .tc := ⟨.hbm, 161, rfl⟩
abbrev main_v130 : Ref sig .tc := ⟨.hbm, 162, rfl⟩
abbrev main_c_24 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_c_25 : Ref sig .tc := ⟨.hbm, 174, rfl⟩
abbrev main_v141 : Ref sig .tc := ⟨.hbm, 175, rfl⟩
abbrev main_v142 : Ref sig .tc := ⟨.hbm, 176, rfl⟩
abbrev main_c_26 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_c_27 : Ref sig .tc := ⟨.hbm, 185, rfl⟩
abbrev main_v150 : Ref sig .tc := ⟨.hbm, 186, rfl⟩
abbrev main_v151 : Ref sig .tc := ⟨.hbm, 187, rfl⟩
abbrev main_c_28 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_c_29 : Ref sig .tc := ⟨.hbm, 199, rfl⟩
abbrev main_v162 : Ref sig .tc := ⟨.hbm, 200, rfl⟩
abbrev main_v163 : Ref sig .tc := ⟨.hbm, 201, rfl⟩
abbrev main_c_30 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_c_31 : Ref sig .tc := ⟨.hbm, 210, rfl⟩
abbrev main_v171 : Ref sig .tc := ⟨.hbm, 211, rfl⟩
abbrev main_v172 : Ref sig .tc := ⟨.hbm, 212, rfl⟩
abbrev main_c_32 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_c_33 : Ref sig .tc := ⟨.hbm, 224, rfl⟩
abbrev main_v183 : Ref sig .tc := ⟨.hbm, 225, rfl⟩
abbrev main_v184 : Ref sig .tc := ⟨.hbm, 226, rfl⟩
abbrev main_c_34 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_c_35 : Ref sig .tc := ⟨.hbm, 235, rfl⟩
abbrev main_v192 : Ref sig .tc := ⟨.hbm, 236, rfl⟩
abbrev main_v193 : Ref sig .tc := ⟨.hbm, 237, rfl⟩
abbrev main_c_36 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_c_37 : Ref sig .tc := ⟨.hbm, 249, rfl⟩
abbrev main_v204 : Ref sig .tc := ⟨.hbm, 250, rfl⟩
abbrev main_v205 : Ref sig .tc := ⟨.hbm, 251, rfl⟩
abbrev main_c_38 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_c_39 : Ref sig .tc := ⟨.hbm, 260, rfl⟩
abbrev main_v213 : Ref sig .tc := ⟨.hbm, 261, rfl⟩
abbrev main_v214 : Ref sig .tc := ⟨.hbm, 262, rfl⟩
abbrev main_c_40 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_c_41 : Ref sig .tc := ⟨.hbm, 274, rfl⟩
abbrev main_v225 : Ref sig .tc := ⟨.hbm, 275, rfl⟩
abbrev main_v226 : Ref sig .tc := ⟨.hbm, 276, rfl⟩
abbrev main_c_42 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_c_43 : Ref sig .tc := ⟨.hbm, 285, rfl⟩
abbrev main_v234 : Ref sig .tc := ⟨.hbm, 286, rfl⟩
abbrev main_v235 : Ref sig .tc := ⟨.hbm, 287, rfl⟩
abbrev main_c_44 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_c_45 : Ref sig .tc := ⟨.hbm, 299, rfl⟩
abbrev main_v246 : Ref sig .tc := ⟨.hbm, 300, rfl⟩
abbrev main_v247 : Ref sig .tc := ⟨.hbm, 301, rfl⟩
abbrev main_c_46 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_c_47 : Ref sig .tc := ⟨.hbm, 310, rfl⟩
abbrev main_v255 : Ref sig .tc := ⟨.hbm, 311, rfl⟩
abbrev main_v256 : Ref sig .tc := ⟨.hbm, 312, rfl⟩
abbrev main_c_48 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_c_49 : Ref sig .tc := ⟨.hbm, 324, rfl⟩
abbrev main_v267 : Ref sig .tc := ⟨.hbm, 325, rfl⟩
abbrev main_v268 : Ref sig .tc := ⟨.hbm, 326, rfl⟩
abbrev main_c_50 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_c_51 : Ref sig .tc := ⟨.hbm, 335, rfl⟩
abbrev main_v276 : Ref sig .tc := ⟨.hbm, 336, rfl⟩
abbrev main_v277 : Ref sig .tc := ⟨.hbm, 337, rfl⟩
abbrev main_c_52 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_c_53 : Ref sig .tc := ⟨.hbm, 349, rfl⟩
abbrev main_v288 : Ref sig .tc := ⟨.hbm, 350, rfl⟩
abbrev main_v289 : Ref sig .tc := ⟨.hbm, 351, rfl⟩
abbrev main_c_54 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_c_55 : Ref sig .tc := ⟨.hbm, 360, rfl⟩
abbrev main_v297 : Ref sig .tc := ⟨.hbm, 361, rfl⟩
abbrev main_v298 : Ref sig .tc := ⟨.hbm, 362, rfl⟩
abbrev main_c_56 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_c_57 : Ref sig .tc := ⟨.hbm, 374, rfl⟩
abbrev main_v309 : Ref sig .tc := ⟨.hbm, 375, rfl⟩
abbrev main_v310 : Ref sig .tc := ⟨.hbm, 376, rfl⟩
abbrev main_c_58 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_c_59 : Ref sig .tc := ⟨.hbm, 385, rfl⟩
abbrev main_v318 : Ref sig .tc := ⟨.hbm, 386, rfl⟩
abbrev main_v319 : Ref sig .tc := ⟨.hbm, 387, rfl⟩
abbrev main_c_60 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_c_61 : Ref sig .tc := ⟨.hbm, 399, rfl⟩
abbrev main_v330 : Ref sig .tc := ⟨.hbm, 400, rfl⟩
abbrev main_v331 : Ref sig .tc := ⟨.hbm, 401, rfl⟩
abbrev main_c_62 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_c_63 : Ref sig .tc := ⟨.hbm, 410, rfl⟩
abbrev main_v339 : Ref sig .tc := ⟨.hbm, 411, rfl⟩
abbrev main_v340 : Ref sig .tc := ⟨.hbm, 412, rfl⟩
abbrev main_c_64 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_c_65 : Ref sig .tc := ⟨.hbm, 424, rfl⟩
abbrev main_v351 : Ref sig .tc := ⟨.hbm, 425, rfl⟩
abbrev main_v352 : Ref sig .tc := ⟨.hbm, 426, rfl⟩
abbrev main_c_66 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_v357 : Ref sig .tc := ⟨.hbm, 432, rfl⟩
abbrev main_v358 : Ref sig .tc := ⟨.hbm, 433, rfl⟩
abbrev main_v359 : Ref sig .tc := ⟨.hbm, 434, rfl⟩
abbrev main_c_67 : Ref sig .tc := ⟨.hbm, 435, rfl⟩
abbrev main_v360 : Ref sig .tc := ⟨.hbm, 436, rfl⟩
abbrev main_v361 : Ref sig .tc := ⟨.hbm, 437, rfl⟩
abbrev main_c_68 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_c_69 : Ref sig .tc := ⟨.hbm, 449, rfl⟩
abbrev main_v372 : Ref sig .tc := ⟨.hbm, 450, rfl⟩
abbrev main_v373 : Ref sig .tc := ⟨.hbm, 451, rfl⟩
abbrev main_c_70 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_c_71 : Ref sig .tc := ⟨.hbm, 460, rfl⟩
abbrev main_v381 : Ref sig .tc := ⟨.hbm, 461, rfl⟩
abbrev main_v382 : Ref sig .tc := ⟨.hbm, 462, rfl⟩
abbrev main_c_72 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_v392 : Ref sig .tc := ⟨.hbm, 473, rfl⟩
abbrev main_c_73 : Ref sig .tc := ⟨.hbm, 474, rfl⟩
abbrev main_v393 : Ref sig .tc := ⟨.hbm, 475, rfl⟩
abbrev main_v394 : Ref sig .tc := ⟨.hbm, 476, rfl⟩
abbrev main_c_74 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_c_75 : Ref sig .tc := ⟨.hbm, 485, rfl⟩
abbrev main_v402 : Ref sig .tc := ⟨.hbm, 486, rfl⟩
abbrev main_v403 : Ref sig .tc := ⟨.hbm, 487, rfl⟩
abbrev main_c_76 : Ref sig .tc := ⟨.hbm, 488, rfl⟩
abbrev main_v404 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_v408 : Ref sig .tc := ⟨.hbm, 493, rfl⟩
abbrev main_v409 : Ref sig .tc := ⟨.hbm, 494, rfl⟩
abbrev main_v410 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_c_77 : Ref sig .tc := ⟨.hbm, 499, rfl⟩
abbrev main_v414 : Ref sig .tc := ⟨.hbm, 500, rfl⟩
abbrev main_v415 : Ref sig .tc := ⟨.hbm, 501, rfl⟩
abbrev main_c_78 : Ref sig .tc := ⟨.hbm, 502, rfl⟩
abbrev main_v416 : Ref sig .tc := ⟨.hbm, 503, rfl⟩
abbrev main_v417 : Ref sig .tc := ⟨.hbm, 504, rfl⟩
abbrev main_v418 : Ref sig .tc := ⟨.hbm, 505, rfl⟩
abbrev main_v419 : Ref sig .tc := ⟨.hbm, 506, rfl⟩
abbrev main_v420 : Ref sig .tc := ⟨.hbm, 507, rfl⟩
abbrev main_v421 : Ref sig .tc := ⟨.hbm, 508, rfl⟩
abbrev main_v422 : Ref sig .tc := ⟨.hbm, 509, rfl⟩
abbrev main_c_79 : Ref sig .tc := ⟨.hbm, 510, rfl⟩
abbrev main_v423 : Ref sig .tc := ⟨.hbm, 511, rfl⟩
abbrev main_v424 : Ref sig .tc := ⟨.hbm, 512, rfl⟩
abbrev main_c_80 : Ref sig .tc := ⟨.hbm, 513, rfl⟩
abbrev main_v425 : Ref sig .tc := ⟨.hbm, 514, rfl⟩
abbrev main_v426 : Ref sig .tc := ⟨.hbm, 515, rfl⟩
abbrev main_v427 : Ref sig .tc := ⟨.hbm, 516, rfl⟩
abbrev main_v428 : Ref sig .tc := ⟨.hbm, 517, rfl⟩
abbrev main_v429 : Ref sig .tc := ⟨.hbm, 518, rfl⟩
abbrev main_v430 : Ref sig .tc := ⟨.hbm, 519, rfl⟩
abbrev main_v431 : Ref sig .tc := ⟨.hbm, 520, rfl⟩
abbrev main_v432 : Ref sig .tc := ⟨.hbm, 521, rfl⟩
abbrev main_v433 : Ref sig .tc := ⟨.hbm, 522, rfl⟩
abbrev main_v434 : Ref sig .tc := ⟨.hbm, 523, rfl⟩
abbrev main_c_81 : Ref sig .tc := ⟨.hbm, 524, rfl⟩
abbrev main_v435 : Ref sig .tc := ⟨.hbm, 525, rfl⟩
abbrev main_v436 : Ref sig .tc := ⟨.hbm, 526, rfl⟩
abbrev main_c_82 : Ref sig .tc := ⟨.hbm, 527, rfl⟩
abbrev main_v437 : Ref sig .tc := ⟨.hbm, 528, rfl⟩
abbrev main_v438 : Ref sig .tc := ⟨.hbm, 529, rfl⟩
abbrev main_v439 : Ref sig .tc := ⟨.hbm, 530, rfl⟩
abbrev main_v440 : Ref sig .tc := ⟨.hbm, 531, rfl⟩
abbrev main_v441 : Ref sig .tc := ⟨.hbm, 532, rfl⟩
abbrev main_v442 : Ref sig .tc := ⟨.hbm, 533, rfl⟩
abbrev main_v443 : Ref sig .tc := ⟨.hbm, 534, rfl⟩
abbrev main_c_83 : Ref sig .tc := ⟨.hbm, 535, rfl⟩
abbrev main_v444 : Ref sig .tc := ⟨.hbm, 536, rfl⟩
abbrev main_v445 : Ref sig .tc := ⟨.hbm, 537, rfl⟩
abbrev main_c_84 : Ref sig .tc := ⟨.hbm, 538, rfl⟩
abbrev main_v446 : Ref sig .tc := ⟨.hbm, 539, rfl⟩
abbrev main_v447 : Ref sig .tc := ⟨.hbm, 540, rfl⟩
abbrev main_v448 : Ref sig .tc := ⟨.hbm, 541, rfl⟩
abbrev main_v449 : Ref sig .tc := ⟨.hbm, 542, rfl⟩
abbrev main_v450 : Ref sig .tc := ⟨.hbm, 543, rfl⟩
abbrev main_v451 : Ref sig .tc := ⟨.hbm, 544, rfl⟩
abbrev main_v452 : Ref sig .tc := ⟨.hbm, 545, rfl⟩
abbrev main_v453 : Ref sig .tc := ⟨.hbm, 546, rfl⟩
abbrev main_v454 : Ref sig .tc := ⟨.hbm, 547, rfl⟩
abbrev main_v455 : Ref sig .tc := ⟨.hbm, 548, rfl⟩
abbrev main_c_85 : Ref sig .tc := ⟨.hbm, 549, rfl⟩
abbrev main_v456 : Ref sig .tc := ⟨.hbm, 550, rfl⟩
abbrev main_v457 : Ref sig .tc := ⟨.hbm, 551, rfl⟩
abbrev main_c_86 : Ref sig .tc := ⟨.hbm, 552, rfl⟩
abbrev main_v458 : Ref sig .tc := ⟨.hbm, 553, rfl⟩
abbrev main_v459 : Ref sig .tc := ⟨.hbm, 554, rfl⟩
abbrev main_v460 : Ref sig .tc := ⟨.hbm, 555, rfl⟩
abbrev main_v461 : Ref sig .tc := ⟨.hbm, 556, rfl⟩
abbrev main_v462 : Ref sig .tc := ⟨.hbm, 557, rfl⟩
abbrev main_v463 : Ref sig .tc := ⟨.hbm, 558, rfl⟩
abbrev main_v464 : Ref sig .tc := ⟨.hbm, 559, rfl⟩
abbrev main_c_87 : Ref sig .tc := ⟨.hbm, 560, rfl⟩
abbrev main_v465 : Ref sig .tc := ⟨.hbm, 561, rfl⟩
abbrev main_v466 : Ref sig .tc := ⟨.hbm, 562, rfl⟩
abbrev main_c_88 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_c_89 : Ref sig .tc := ⟨.hbm, 574, rfl⟩
abbrev main_v477 : Ref sig .tc := ⟨.hbm, 575, rfl⟩
abbrev main_v478 : Ref sig .tc := ⟨.hbm, 576, rfl⟩
abbrev main_c_90 : Ref sig .tc := ⟨.hbm, 577, rfl⟩
abbrev main_v479 : Ref sig .tc := ⟨.hbm, 578, rfl⟩
abbrev main_v480 : Ref sig .tc := ⟨.hbm, 579, rfl⟩
abbrev main_v481 : Ref sig .tc := ⟨.hbm, 580, rfl⟩
abbrev main_v482 : Ref sig .tc := ⟨.hbm, 581, rfl⟩
abbrev main_v483 : Ref sig .tc := ⟨.hbm, 582, rfl⟩
abbrev main_v484 : Ref sig .tc := ⟨.hbm, 583, rfl⟩
abbrev main_v485 : Ref sig .tc := ⟨.hbm, 584, rfl⟩
abbrev main_c_91 : Ref sig .tc := ⟨.hbm, 585, rfl⟩
abbrev main_v486 : Ref sig .tc := ⟨.hbm, 586, rfl⟩
abbrev main_v487 : Ref sig .tc := ⟨.hbm, 587, rfl⟩
abbrev main_c_92 : Ref sig .tc := ⟨.hbm, 588, rfl⟩
abbrev main_v488 : Ref sig .tc := ⟨.hbm, 589, rfl⟩
abbrev main_v489 : Ref sig .tc := ⟨.hbm, 590, rfl⟩
abbrev main_v490 : Ref sig .tc := ⟨.hbm, 591, rfl⟩
abbrev main_v491 : Ref sig .tc := ⟨.hbm, 592, rfl⟩
abbrev main_v492 : Ref sig .tc := ⟨.hbm, 593, rfl⟩
abbrev main_v493 : Ref sig .tc := ⟨.hbm, 594, rfl⟩
abbrev main_v494 : Ref sig .tc := ⟨.hbm, 595, rfl⟩
abbrev main_v495 : Ref sig .tc := ⟨.hbm, 596, rfl⟩
abbrev main_v496 : Ref sig .tc := ⟨.hbm, 597, rfl⟩
abbrev main_v497 : Ref sig .tc := ⟨.hbm, 598, rfl⟩
abbrev main_c_93 : Ref sig .tc := ⟨.hbm, 599, rfl⟩
abbrev main_v498 : Ref sig .tc := ⟨.hbm, 600, rfl⟩
abbrev main_v499 : Ref sig .tc := ⟨.hbm, 601, rfl⟩
abbrev main_c_94 : Ref sig .tc := ⟨.hbm, 602, rfl⟩
abbrev main_v500 : Ref sig .tc := ⟨.hbm, 603, rfl⟩
abbrev main_v501 : Ref sig .tc := ⟨.hbm, 604, rfl⟩
abbrev main_v502 : Ref sig .tc := ⟨.hbm, 605, rfl⟩
abbrev main_v503 : Ref sig .tc := ⟨.hbm, 606, rfl⟩
abbrev main_v504 : Ref sig .tc := ⟨.hbm, 607, rfl⟩
abbrev main_v505 : Ref sig .tc := ⟨.hbm, 608, rfl⟩
abbrev main_v506 : Ref sig .tc := ⟨.hbm, 609, rfl⟩
abbrev main_c_95 : Ref sig .tc := ⟨.hbm, 610, rfl⟩
abbrev main_v507 : Ref sig .tc := ⟨.hbm, 611, rfl⟩
abbrev main_v508 : Ref sig .tc := ⟨.hbm, 612, rfl⟩
abbrev main_c_96 : Ref sig .tc := ⟨.hbm, 613, rfl⟩
abbrev main_v509 : Ref sig .tc := ⟨.hbm, 614, rfl⟩
abbrev main_v510 : Ref sig .tc := ⟨.hbm, 615, rfl⟩
abbrev main_v511 : Ref sig .tc := ⟨.hbm, 616, rfl⟩
abbrev main_v512 : Ref sig .tc := ⟨.hbm, 617, rfl⟩
abbrev main_v513 : Ref sig .tc := ⟨.hbm, 618, rfl⟩
abbrev main_v514 : Ref sig .tc := ⟨.hbm, 619, rfl⟩
abbrev main_v515 : Ref sig .tc := ⟨.hbm, 620, rfl⟩
abbrev main_v516 : Ref sig .tc := ⟨.hbm, 621, rfl⟩
abbrev main_v517 : Ref sig .tc := ⟨.hbm, 622, rfl⟩
abbrev main_v518 : Ref sig .tc := ⟨.hbm, 623, rfl⟩
abbrev main_c_97 : Ref sig .tc := ⟨.hbm, 624, rfl⟩
abbrev main_v519 : Ref sig .tc := ⟨.hbm, 625, rfl⟩
abbrev main_v520 : Ref sig .tc := ⟨.hbm, 626, rfl⟩
abbrev main_c_98 : Ref sig .tc := ⟨.hbm, 627, rfl⟩
abbrev main_v521 : Ref sig .tc := ⟨.hbm, 628, rfl⟩
abbrev main_v522 : Ref sig .tc := ⟨.hbm, 629, rfl⟩
abbrev main_v523 : Ref sig .tc := ⟨.hbm, 630, rfl⟩
abbrev main_v524 : Ref sig .tc := ⟨.hbm, 631, rfl⟩
abbrev main_v525 : Ref sig .tc := ⟨.hbm, 632, rfl⟩
abbrev main_v526 : Ref sig .tc := ⟨.hbm, 633, rfl⟩
abbrev main_v527 : Ref sig .tc := ⟨.hbm, 634, rfl⟩
abbrev main_c_99 : Ref sig .tc := ⟨.hbm, 635, rfl⟩
abbrev main_v528 : Ref sig .tc := ⟨.hbm, 636, rfl⟩
abbrev main_v529 : Ref sig .tc := ⟨.hbm, 637, rfl⟩
abbrev main_c_100 : Ref sig .tc := ⟨.hbm, 638, rfl⟩
abbrev main_v530 : Ref sig .tc := ⟨.hbm, 639, rfl⟩
abbrev main_v531 : Ref sig .tc := ⟨.hbm, 640, rfl⟩
abbrev main_v532 : Ref sig .tc := ⟨.hbm, 641, rfl⟩
abbrev main_v533 : Ref sig .tc := ⟨.hbm, 642, rfl⟩
abbrev main_v534 : Ref sig .tc := ⟨.hbm, 643, rfl⟩
abbrev main_v535 : Ref sig .tc := ⟨.hbm, 644, rfl⟩
abbrev main_v536 : Ref sig .tc := ⟨.hbm, 645, rfl⟩
abbrev main_v537 : Ref sig .tc := ⟨.hbm, 646, rfl⟩
abbrev main_v538 : Ref sig .tc := ⟨.hbm, 647, rfl⟩
abbrev main_v539 : Ref sig .tc := ⟨.hbm, 648, rfl⟩
abbrev main_c_101 : Ref sig .tc := ⟨.hbm, 649, rfl⟩
abbrev main_v540 : Ref sig .tc := ⟨.hbm, 650, rfl⟩
abbrev main_v541 : Ref sig .tc := ⟨.hbm, 651, rfl⟩
abbrev main_c_102 : Ref sig .tc := ⟨.hbm, 652, rfl⟩
abbrev main_v542 : Ref sig .tc := ⟨.hbm, 653, rfl⟩
abbrev main_v543 : Ref sig .tc := ⟨.hbm, 654, rfl⟩
abbrev main_v544 : Ref sig .tc := ⟨.hbm, 655, rfl⟩
abbrev main_v545 : Ref sig .tc := ⟨.hbm, 656, rfl⟩
abbrev main_v546 : Ref sig .tc := ⟨.hbm, 657, rfl⟩
abbrev main_v547 : Ref sig .tc := ⟨.hbm, 658, rfl⟩
abbrev main_v548 : Ref sig .tc := ⟨.hbm, 659, rfl⟩
abbrev main_c_103 : Ref sig .tc := ⟨.hbm, 660, rfl⟩
abbrev main_v549 : Ref sig .tc := ⟨.hbm, 661, rfl⟩
abbrev main_v550 : Ref sig .tc := ⟨.hbm, 662, rfl⟩
abbrev main_c_104 : Ref sig .tc := ⟨.hbm, 663, rfl⟩
abbrev main_v551 : Ref sig .tc := ⟨.hbm, 664, rfl⟩
abbrev main_v552 : Ref sig .tc := ⟨.hbm, 665, rfl⟩
abbrev main_v553 : Ref sig .tc := ⟨.hbm, 666, rfl⟩
abbrev main_v554 : Ref sig .tc := ⟨.hbm, 667, rfl⟩
abbrev main_v555 : Ref sig .tc := ⟨.hbm, 668, rfl⟩
abbrev main_v556 : Ref sig .tc := ⟨.hbm, 669, rfl⟩
abbrev main_v557 : Ref sig .tc := ⟨.hbm, 670, rfl⟩
abbrev main_v558 : Ref sig .tc := ⟨.hbm, 671, rfl⟩
abbrev main_v559 : Ref sig .tc := ⟨.hbm, 672, rfl⟩
abbrev main_v560 : Ref sig .tc := ⟨.hbm, 673, rfl⟩
abbrev main_c_105 : Ref sig .tc := ⟨.hbm, 674, rfl⟩
abbrev main_v561 : Ref sig .tc := ⟨.hbm, 675, rfl⟩
abbrev main_v562 : Ref sig .tc := ⟨.hbm, 676, rfl⟩
abbrev main_c_106 : Ref sig .tc := ⟨.hbm, 677, rfl⟩
abbrev main_v563 : Ref sig .tc := ⟨.hbm, 678, rfl⟩
abbrev main_v564 : Ref sig .tc := ⟨.hbm, 679, rfl⟩
abbrev main_v565 : Ref sig .tc := ⟨.hbm, 680, rfl⟩
abbrev main_v566 : Ref sig .tc := ⟨.hbm, 681, rfl⟩
abbrev main_v567 : Ref sig .tc := ⟨.hbm, 682, rfl⟩
abbrev main_cst_107 : Ref sig .tc := ⟨.hbm, 683, rfl⟩
abbrev main_v568 : Ref sig .tc := ⟨.hbm, 684, rfl⟩
abbrev main_cst_108 : Ref sig .tc := ⟨.hbm, 685, rfl⟩
abbrev main_v569 : Ref sig .tc := ⟨.hbm, 686, rfl⟩
abbrev main_v570 : Ref sig .tc := ⟨.hbm, 687, rfl⟩
abbrev main_c_109 : Ref sig .tc := ⟨.hbm, 688, rfl⟩
abbrev main_call0_cst : Ref sig .tc := ⟨.hbm, 689, rfl⟩
abbrev main_call0_v0 : Ref sig .tc := ⟨.hbm, 690, rfl⟩
abbrev main_call0_v1 : Ref sig .tc := ⟨.hbm, 691, rfl⟩
abbrev main_call0_cst_0 : Ref sig .tc := ⟨.hbm, 692, rfl⟩
abbrev main_call0_v2 : Ref sig .tc := ⟨.hbm, 693, rfl⟩
abbrev main_call0_v3 : Ref sig .tc := ⟨.hbm, 694, rfl⟩
abbrev main_call0_v4 : Ref sig .tc := ⟨.hbm, 695, rfl⟩
abbrev main_call0_v5 : Ref sig .tc := ⟨.hbm, 696, rfl⟩
abbrev main_call0_v6 : Ref sig .tc := ⟨.hbm, 697, rfl⟩
abbrev main_call0_v7 : Ref sig .tc := ⟨.hbm, 698, rfl⟩
abbrev main_call0_cst_1 : Ref sig .tc := ⟨.hbm, 699, rfl⟩
abbrev main_call0_v8 : Ref sig .tc := ⟨.hbm, 700, rfl⟩
abbrev main_call0_cst_2 : Ref sig .tc := ⟨.hbm, 701, rfl⟩
abbrev main_call0_v9 : Ref sig .tc := ⟨.hbm, 702, rfl⟩
abbrev main_call0_v10 : Ref sig .tc := ⟨.hbm, 703, rfl⟩
abbrev main_call0_v11 : Ref sig .tc := ⟨.hbm, 704, rfl⟩
abbrev main_call0_cst_3 : Ref sig .tc := ⟨.hbm, 705, rfl⟩
abbrev main_call0_v12 : Ref sig .tc := ⟨.hbm, 706, rfl⟩
abbrev main_call0_cst_4 : Ref sig .tc := ⟨.hbm, 707, rfl⟩
abbrev main_call0_call0_v0 : Ref sig .tc := ⟨.hbm, 708, rfl⟩
abbrev main_call0_call0_v1 : Ref sig .tc := ⟨.hbm, 709, rfl⟩
abbrev main_v571 : Ref sig .tc := ⟨.hbm, 710, rfl⟩
abbrev main_v572 : Ref sig .tc := ⟨.hbm, 711, rfl⟩
abbrev main_v573 : Ref sig .tc := ⟨.hbm, 712, rfl⟩
abbrev main_v574 : Ref sig .tc := ⟨.hbm, 713, rfl⟩
abbrev main_cst_110 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_v578 : Ref sig .tc := ⟨.hbm, 718, rfl⟩
abbrev main_v579 : Ref sig .tc := ⟨.hbm, 719, rfl⟩
abbrev main_v580 : Ref sig .tc := ⟨.hbm, 720, rfl⟩
abbrev main_v581 : Ref sig .tc := ⟨.hbm, 721, rfl⟩
abbrev main_v582 : Ref sig .tc := ⟨.hbm, 722, rfl⟩
abbrev main_v583 : Ref sig .tc := ⟨.hbm, 723, rfl⟩
abbrev main_v584 : Ref sig .tc := ⟨.hbm, 724, rfl⟩
abbrev main_v585 : Ref sig .tc := ⟨.hbm, 725, rfl⟩
abbrev main_v586 : Ref sig .tc := ⟨.hbm, 726, rfl⟩
abbrev main_cst_111 : Ref sig .tc := ⟨.hbm, 727, rfl⟩
abbrev main_v587 : Ref sig .tc := ⟨.hbm, 728, rfl⟩
abbrev main_v588 : Ref sig .tc := ⟨.hbm, 729, rfl⟩

abbrev nD : Nat := 1
abbrev τ : Topo := Topo.v7x

variable {F : FTy → Type} [FloatOps F]

class Facts₀ : Prop where
  bcast_S_S524288x64 : S_.BroadcastsInDim S524288x64 (![] : Fin 0 → Fin S524288x64.rank)
  slices_S27x131072_S1x131072_0_0 : S27x131072.Slices ![0, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S27x64x64_S1x64x64_0_0_0 : S27x64x64.Slices ![0, 0, 0] S1x64x64
  shapeCasts_S1x64x64_S64x64 : S1x64x64.ShapeCasts S64x64
  slices_S27x131072_S1x131072_1_0 : S27x131072.Slices ![1, 0] S1x131072
  slices_S27x64x64_S1x64x64_1_0_0 : S27x64x64.Slices ![1, 0, 0] S1x64x64
  slices_S27x131072_S1x131072_2_0 : S27x131072.Slices ![2, 0] S1x131072
  slices_S27x64x64_S1x64x64_2_0_0 : S27x64x64.Slices ![2, 0, 0] S1x64x64
  slices_S27x131072_S1x131072_3_0 : S27x131072.Slices ![3, 0] S1x131072
  slices_S27x64x64_S1x64x64_3_0_0 : S27x64x64.Slices ![3, 0, 0] S1x64x64
  slices_S27x131072_S1x131072_4_0 : S27x131072.Slices ![4, 0] S1x131072
  slices_S27x64x64_S1x64x64_4_0_0 : S27x64x64.Slices ![4, 0, 0] S1x64x64
  slices_S27x131072_S1x131072_5_0 : S27x131072.Slices ![5, 0] S1x131072
  slices_S27x64x64_S1x64x64_5_0_0 : S27x64x64.Slices ![5, 0, 0] S1x64x64
  slices_S27x131072_S1x131072_6_0 : S27x131072.Slices ![6, 0] S1x131072
  slices_S27x64x64_S1x64x64_6_0_0 : S27x64x64.Slices ![6, 0, 0] S1x64x64
  slices_S27x131072_S1x131072_7_0 : S27x131072.Slices ![7, 0] S1x131072
  slices_S27x64x64_S1x64x64_7_0_0 : S27x64x64.Slices ![7, 0, 0] S1x64x64
  slices_S27x131072_S1x131072_8_0 : S27x131072.Slices ![8, 0] S1x131072
  slices_S27x64x64_S1x64x64_8_0_0 : S27x64x64.Slices ![8, 0, 0] S1x64x64
  slices_S27x131072_S1x131072_9_0 : S27x131072.Slices ![9, 0] S1x131072
  slices_S27x64x64_S1x64x64_9_0_0 : S27x64x64.Slices ![9, 0, 0] S1x64x64
  slices_S27x131072_S1x131072_10_0 : S27x131072.Slices ![10, 0] S1x131072
  slices_S27x64x64_S1x64x64_10_0_0 : S27x64x64.Slices ![10, 0, 0] S1x64x64
  slices_S27x131072_S1x131072_11_0 : S27x131072.Slices ![11, 0] S1x131072
  slices_S27x64x64_S1x64x64_11_0_0 : S27x64x64.Slices ![11, 0, 0] S1x64x64
  slices_S27x131072_S1x131072_12_0 : S27x131072.Slices ![12, 0] S1x131072
  slices_S27x64x64_S1x64x64_12_0_0 : S27x64x64.Slices ![12, 0, 0] S1x64x64
  slices_S27x131072_S1x131072_13_0 : S27x131072.Slices ![13, 0] S1x131072
  slices_S27x64x64_S1x64x64_13_0_0 : S27x64x64.Slices ![13, 0, 0] S1x64x64
  slices_S27x131072_S1x131072_14_0 : S27x131072.Slices ![14, 0] S1x131072
  slices_S27x64x64_S1x64x64_14_0_0 : S27x64x64.Slices ![14, 0, 0] S1x64x64
  slices_S27x131072_S1x131072_15_0 : S27x131072.Slices ![15, 0] S1x131072
  slices_S27x64x64_S1x64x64_15_0_0 : S27x64x64.Slices ![15, 0, 0] S1x64x64
  slices_S27x131072_S1x131072_16_0 : S27x131072.Slices ![16, 0] S1x131072
  slices_S27x64x64_S1x64x64_16_0_0 : S27x64x64.Slices ![16, 0, 0] S1x64x64
  slices_S27x131072_S1x131072_17_0 : S27x131072.Slices ![17, 0] S1x131072
  slices_S27x64x64_S1x64x64_17_0_0 : S27x64x64.Slices ![17, 0, 0] S1x64x64
  slices_S27x131072_S1x131072_18_0 : S27x131072.Slices ![18, 0] S1x131072
  slices_S27x64x64_S1x64x64_18_0_0 : S27x64x64.Slices ![18, 0, 0] S1x64x64
  slices_S27x131072_S1x131072_19_0 : S27x131072.Slices ![19, 0] S1x131072
  slices_S27x64x64_S1x64x64_19_0_0 : S27x64x64.Slices ![19, 0, 0] S1x64x64
  slices_S27x131072_S1x131072_20_0 : S27x131072.Slices ![20, 0] S1x131072
  slices_S27x64x64_S1x64x64_20_0_0 : S27x64x64.Slices ![20, 0, 0] S1x64x64
  slices_S27x131072_S1x131072_21_0 : S27x131072.Slices ![21, 0] S1x131072
  slices_S27x64x64_S1x64x64_21_0_0 : S27x64x64.Slices ![21, 0, 0] S1x64x64
  slices_S27x131072_S1x131072_22_0 : S27x131072.Slices ![22, 0] S1x131072
  slices_S27x64x64_S1x64x64_22_0_0 : S27x64x64.Slices ![22, 0, 0] S1x64x64
  slices_S27x131072_S1x131072_23_0 : S27x131072.Slices ![23, 0] S1x131072
  slices_S27x64x64_S1x64x64_23_0_0 : S27x64x64.Slices ![23, 0, 0] S1x64x64
  slices_S27x131072_S1x131072_24_0 : S27x131072.Slices ![24, 0] S1x131072
  slices_S27x64x64_S1x64x64_24_0_0 : S27x64x64.Slices ![24, 0, 0] S1x64x64
  slices_S27x131072_S1x131072_25_0 : S27x131072.Slices ![25, 0] S1x131072
  slices_S27x64x64_S1x64x64_25_0_0 : S27x64x64.Slices ![25, 0, 0] S1x64x64
  slices_S27x131072_S1x131072_26_0 : S27x131072.Slices ![26, 0] S1x131072
  slices_S27x64x64_S1x64x64_26_0_0 : S27x64x64.Slices ![26, 0, 0] S1x64x64
  reducesTo_S524288x64_S64_d0 : S524288x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S524288x64_0_1 : S1x64.BroadcastsInDim S524288x64 (![0, 1] : Fin 2 → Fin S524288x64.rank)
  gather_S524288x64_S131072x1_S131072x64_1_0_n_n_0_1_164_wf : GatherDims.WF S524288x64 S131072x1 S131072x64 [1] [0] [] [0] [] 1 ![1, 64]
  dot_S131072x64_S64x64_S131072x64_1_0_0_1_n_n_wf : DotDims.WF S131072x64 S64x64 S131072x64 [1] [0] [0] [1] [] []
  scatter_S524288x64_S131072x1_S131072x64_1_0_0_1_wf : ScatterDims.WF S524288x64 S131072x1 S131072x64 [1] [0] [0] 1

variable [Facts₀]

def gather_S524288x64_S131072x1_S131072x64_1_0_n_n_0_1_164 : GatherDims S524288x64 S131072x1 S131072x64 where
  offsetDims := [1]
  collapsedSliceDims := [0]
  operandBatchingDims := []
  startIndicesBatchingDims := []
  startIndexMap := [0]
  indexVectorDim := 1
  sliceSizes := ![1, 64]
  wf := gather_S524288x64_S131072x1_S131072x64_1_0_n_n_0_1_164_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def scatter_S524288x64_S131072x1_S131072x64_1_0_0_1 : ScatterDims S524288x64 S131072x1 S131072x64 where
  updateWindowDims := [1]
  insertedWindowDims := [0]
  scatterDimsToOperandDims := [0]
  indexVectorDim := 1
  wf := scatter_S524288x64_S131072x1_S131072x64_1_0_0_1_wf

class Facts : Prop extends Facts₀ where

variable [Facts]
-- ==== Proof.K.Reg0.lean ====
import proofs.«428655_j7868380086734_3_alg».proof.Proof.Gen.Kernel.Launch
import proofs.«428655_j7868380086734_3_alg».proof.Proof.Gen.Kernel.Skeleton
import proofs.«428655_j7868380086734_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_lhs : Rect S1x8192x128 := Rect.unit (s := S1x8192x128) ![0, 0, 0] S1x8192x128.size inb_S1x8192x128_S1x8192x128_0_0_0
abbrev r0_rhs : Rect S1x128x128 := Rect.unit (s := S1x128x128) ![0, 0, 0] S1x128x128.size inb_S1x128x128_S1x128x128_0_0_0

def out0_2 (x0 : Vec F S1x8192x128 .bf16) (x1 : Vec F S1x128x128 .bf16) : Vec F S1x8192x128 .bf16 :=
  View.canon [⟨r0_lhs, k0_pay1 (View.ld x0 r0_lhs) (View.ld x1 r0_rhs)⟩]

theorem cover0_2 (p0 : Vec F S1x8192x128 .bf16) (y : S1x8192x128.Idx) :
    ∃ pc ∈ ([⟨r0_lhs, p0⟩] : List (View.Piece (Elt F) S1x8192x128 .bf16)), y ∈ pc.1.set :=
  View.cover_of_tiled [⟨r0_lhs, p0⟩] S1x8192x128.size (by rfl) y

set_option maxHeartbeats 1000000 in
theorem sound_kernel0 (c : Dev nD) (E : Set ℕ) (i : grid0.Coords)
    (arg2 : Memref sig .tc .vmem S1x8192x128 .bf16) (harg2 : arg2.IsWhole)
    (arg3 : Memref sig .tc .vmem S1x128x128 .bf16) (harg3 : arg3.IsWhole)
    (arg4 : Memref sig .tc .vmem S1x8192x128 .bf16) (harg4 : arg4.IsWhole)
    (x0 : Vec F S1x8192x128 .bf16) (x1 : Vec F S1x128x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.Base.lean ====
import proofs.«428655_j7868380086734_3_alg».proof.Proof.Gen.Kernel.Launch
import proofs.«428655_j7868380086734_3_alg».proof.Proof.Gen.Kernel.Skeleton
import proofs.«428655_j7868380086734_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

def acc1 (c : Dev nD) : (n : ℕ) → n < cfg1.N → Vec F S1x128 .f32 × Vec F S1x128 .f32
  | 0, h => (k1_pay4 (iblk1 V c 0 ⟨0, h⟩) (k1_pay1 (F := F)), k1_pay5 (iblk1 V c 0 ⟨0, h⟩) (k1_pay2 (F := F)))
  | n + 1, h => (k1_pay4 (iblk1 V c 0 ⟨n + 1, h⟩) (acc1 c n (Nat.lt_of_succ_lt h)).1,
      k1_pay5 (iblk1 V c 0 ⟨n + 1, h⟩) (acc1 c n (Nat.lt_of_succ_lt h)).2)

theorem acc1_zero (c : Dev nD) (h : 0 < cfg1.N) :
    acc1 V c 0 h = (k1_pay4 (iblk1 V c 0 ⟨0, h⟩) (k1_pay1 (F := F)), k1_pay5 (iblk1 V c 0 ⟨0, h⟩) (k1_pay2 (F := F))) := rfl

theorem acc1_succ (c : Dev nD) (n : ℕ) (h : n + 1 < cfg1.N) :
    acc1 V c (n + 1) h = (k1_pay4 (iblk1 V c 0 ⟨n + 1, h⟩) (acc1 V c n (Nat.lt_of_succ_lt h)).1,
      k1_pay5 (iblk1 V c 0 ⟨n + 1, h⟩) (acc1 V c n (Nat.lt_of_succ_lt h)).2) := rfl

theorem acc1_pos (c : Dev nD) (t : Fin cfg1.N) (hz : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2) := by
  obtain ⟨n, hn⟩ := t
  cases n with
  | zero => exact absurd rfl hz
  | succ n => rfl

end Region1

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev scM1_0 : Memref sig .tc .vmem S1x128 .f32 := Memref.whole cc1_scratch0
abbrev scM1_1 : Memref sig .tc .vmem S1x128 .f32 := Memref.whole cc1_scratch1

end Cert.Kernel.Hand

end
-- ==== Proof.K.Reg1.Runs.lean ====
import proofs.«428655_j7868380086734_3_alg».proof.Proof.K.Reg1.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1x128 : (![0, 0] : Fin S1x128.rank → ℕ) = fun _ => 0 := by funext a; fin_cases a <;> rfl
theorem zeros8192x128 : (![0, 0] : Fin S8192x128.rank → ℕ) = fun _ => 0 := by funext a; fin_cases a <;> rfl

theorem readAt_whole_big {κ : Kind} (m : Memref sig κ .vmem S8192x128 .f32) (hm : m.IsWhole) (x : Vec F S8192x128 .f32) :
    View.readAt (Elt F) m.view (Rect.unit (s := S8192x128) ![0, 0] S8192x128.size inb_S8192x128_S8192x128_0_0).toLoadRect (hm.unread x) = x := by
  rw [show View.readAt (Elt F) m.view (Rect.unit (s := S8192x128) ![0, 0] S8192x128.size inb_S8192x128_S8192x128_0_0).toLoadRect (hm.unread x)
      = View.ld (m.view.read (Elt F) (hm.unread x)) (Rect.unit (s := S8192x128) ![0, 0] S8192x128.size inb_S8192x128_S8192x128_0_0) from rfl,
    hm.read_unread, View.ld_unit_zero (S := S8192x128) zeros8192x128 inb_S8192x128_S8192x128_0_0 x]

theorem readAt_whole_small {κ : Kind} (m : Memref sig κ .vmem S1x128 .f32) (hm : m.IsWhole) (x : Vec F S1x128 .f32) :
    View.readAt (Elt F) m.view (Rect.unit (s := S1x128) ![0, 0] S1x128.size inb_S1x128_S1x128_0_0).toLoadRect (hm.unread x) = x := by
  rw [show View.readAt (Elt F) m.view (Rect.unit (s := S1x128) ![0, 0] S1x128.size inb_S1x128_S1x128_0_0).toLoadRect (hm.unread x)
      = View.ld (m.view.read (Elt F) (hm.unread x)) (Rect.unit (s := S1x128) ![0, 0] S1x128.size inb_S1x128_S1x128_0_0) from rfl,
    hm.read_unread, View.ld_unit_zero (S := S1x128) zeros1x128 inb_S1x128_S1x128_0_0 x]

theorem read_writes_last_small {κ : Kind} (v : View sig κ .vmem S1x128 .f32) (f : v.ty.Contents (Elt F)) (w : Vec F S1x128 .f32)
    (L : List (View.Piece (Elt F) S1x128 .f32)) :
    v.read (Elt F) (v.writes (Elt F) f (⟨Rect.unit (s := S1x128) ![0, 0] S1x128.size inb_S1x128_S1x128_0_0, w⟩ :: L)) = w := by
  rw [View.read_writes_eq_canon v f _ (fun y => ⟨⟨Rect.unit (s := S1x128) ![0, 0] S1x128.size inb_S1x128_S1x128_0_0, w⟩, List.mem_cons_self,
      View.mem_set_unit_zero (S := S1x128) zeros1x128 inb_S1x128_S1x128_0_0 y⟩),
    View.canon_cons_unit_zero (S := S1x128) zeros1x128 inb_S1x128_S1x128_0_0 w L]

theorem readCov_last_small {κ : Kind} (v : View sig κ .vmem S1x128 .f32) (w : Vec F S1x128 .f32)
    (L : List (View.Piece (Elt F) S1x128 .f32)) :
    v.readCov (⟨Rect.unit (s := S1x128) ![0, 0] S1x128.size inb_S1x128_S1x128_0_0, w⟩ :: L)
      (Rect.unit (s := S1x128) ![0, 0] S1x128.size inb_S1x128_S1x128_0_0).toLoadRect = w := by
  rw [View.readCov_eq_canon_ld v _ (Rect.unit (s := S1x128) ![0, 0] S1x128.size inb_S1x128_S1x128_0_0)
      (fun y => ⟨⟨Rect.unit (s := S1x128) ![0, 0] S1x128.size inb_S1x128_S1x128_0_0, w⟩, List.mem_cons_self,
      View.mem_set_unit_zero (S := S1x128) zeros1x128 inb_S1x128_S1x128_0_0 y⟩),
    View.canon_cons_unit_zero (S := S1x128) zeros1x128 inb_S1x128_S1x128_0_0 w L, View.ld_unit_zero (S := S1x128) zeros1x128 inb_S1x128_S1x128_0_0 w]

set_option maxHeartbeats 4000000 in
theorem kernelRun1_A (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i)
    (x0 : Vec F S8192x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 (k1_pay1 (F := F))) ∗ owns (c : Thread nD τ) arg5 fullShare (k1_pay5 x0 (k1_pay2 (F := F)))) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    unfold kernelRun1_A.sl.v5 kernelRun1_A.sl.HS0_1
    rw [read_writes_last_small, readAt_whole_big, readCov_last_small]
  iexists _; isplitr
  swap; · iexact HS1
  ipureintro
  unfold kernelRun1_A.sl.v12 kernelRun1_A.sl.HS1_1
  rw [read_writes_last_small, readAt_whole_big, readCov_last_small]

set_option maxHeartbeats 4000000 in
theorem kernelRun1_B (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : ¬cond1_1 i)
    (x0 : Vec F S8192x128 .f32) (xi1 xi2 s0 s1 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare s0 ∗ owns (c : Thread nD τ) arg5 fullShare s1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [read_writes_last_small, readAt_whole_big, readAt_whole_small]
  iexists _; isplitr
  swap; · iexact HS1
  ipureintro
  rw [read_writes_last_small, readAt_whole_big, readAt_whole_small]

set_option maxHeartbeats 4000000 in
theorem kernelRun1_C (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S8192x128 .f32) (s0 s1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay4 x0 s0) ∗ owns (c : Thread nD τ) arg3 fullShare (k1_pay5 x0 s1)
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    rw [read_writes_last_small]
    unfold kernelRun1_C.sl.v23 kernelRun1_C.sl.HS0_1
    rw [readCov_last_small, readAt_whole_big, readAt_whole_small]
  isplitl [H2]
  · iexists _; isplitr
    swap; · iexact H2
    ipureintro
    rw [read_writes_last_small]
    unfold kernelRun1_C.sl.v25 kernelRun1_C.sl.HS1_1
    rw [readCov_last_small, readAt_whole_big, readAt_whole_small]
  isplitl [HS0]
  · iexists _; isplitr
    swap; · iexact HS0
    ipureintro
    unfold kernelRun1_C.sl.HS0_1
    rw [read_writes_last_small, readAt_whole_big, readAt_whole_small]
  iexists _; isplitr
  swap; · iexact HS1
  ipureintro
  unfold kernelRun1_C.sl.HS1_1
  rw [read_writes_last_small, readAt_whole_big, readAt_whole_small]

end Cert.Kernel.Hand

end
-- ==== Proof.K.Reg1.lean ====
import proofs.«428655_j7868380086734_3_alg».proof.Proof.K.Reg1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ others1 (F := F) c ∗ (∃ r, prngReg c r)) := by
  unfold Pipeline.ΦA others1; rw [scopedRest1_eq]; simp only [scM1_0, scM1_1, owns_whole]
  iintro ⟨⟨A1, A2, A3, A4, A5, A6, S0, S1, B⟩, Hg⟩
  isplitl [S0]; · iexact S0
  isplitl [S1]; · iexact S1
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  iexact B

theorem PhiA1_join (c : Dev nD) :
    iprop((∃ d, owns (c : Thread nD τ) scM1_0 fullShare d) ∗ (∃ d, owns (c : Thread nD τ) scM1_1 fullShare d) ∗ others1 (F := F) c ∗ (∃ r, prngReg c r)) ⊢ (Pipeline.ΦA spec1 c : sProp 𝕄) := by
  unfold Pipeline.ΦA others1; rw [scopedRest1_eq]; simp only [scM1_0, scM1_1, owns_whole]
  iintro ⟨S0, S1, ⟨A1, A2, A3, A4, A5, A6, B⟩, Hg⟩
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [S0]; · iexact S0
  isplitl [S1]; · iexact S1
  iexact B

theorem PhiA1_eq (c : Dev nD) :
    (Pipeline.ΦA spec1 c : sProp 𝕄) = iprop((∃ d, owns (c : Thread nD τ) scM1_0 fullShare d) ∗ (∃ d, owns (c : Thread nD τ) scM1_1 fullShare d) ∗ others1 (F := F) c ∗ (∃ r, prngReg c r)) :=
  BI.equiv_iff.mp ⟨PhiA1_split c, PhiA1_join c⟩

section Region1
variable (V : (c : Dev nD) → (b : Ref sig .tc) → Buf (Elt F) ((c : Thread nD τ).loc b))

def PhiS1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2 ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (acc1 V c n hn).1 ∗ owns (c : Thread nD τ) scM1_1 fullShare (acc1 V c n hn).2 ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega)).1 ∗ owns (c : Thread nD τ) scM1_1 fullShare (acc1 V c (n - 1) (by omega)).2 ∗ others1 c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

theorem after1_1_last (c : Dev nD) : (dat1 V c).after 1 ⟨31, by decide⟩ = (acc1 V c 31 (by decide)).1 := by dsimp only [dat1]
theorem after1_2_last (c : Dev nD) : (dat1 V c).after 2 ⟨31, by decide⟩ = (acc1 V c 31 (by decide)).2 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem acc1_first (c : Dev nD) (t : Fin cfg1.N) (hz : t.val = 0) :
    acc1 V c t.val t.isLt = (k1_pay4 (iblk1 V c 0 t) (k1_pay1 (F := F)), k1_pay5 (iblk1 V c 0 t) (k1_pay2 (F := F))) := by
  obtain ⟨n, hn⟩ := t
  cases n with
  | zero => rfl
  | succ n => exact absurd hz (Nat.succ_ne_zero n)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  by_cases h1 : t.val = 31
  · have h0 : t.val ≠ 0 := by omega
    rw [show (dat1 V c).leavesExact 1 t = owns (c : Thread nD τ) (ms1_1 t) fullShare ((dat1 V c).after 1 t) from by
      unfold Dat.leavesExact; rw [liveAt1_1 t ((hcond1_1 t).mpr h1)], after1_1]
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_pos V c t h0]; dsimp only
    rw [PhiS1_castSucc V c t, PhiS1_pos V c _ _ h0]
    iintro ⟨⟨HS0, HS1, Hr, Hg⟩, Ho, ⟨%d0, H0⟩, ⟨%d1, H1⟩, ⟨%d2, H2⟩⟩
    iapply (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (acc1 V c (t.val - 1) (Nat.lt_of_le_of_lt (Nat.sub_le _ _) t.isLt)).1 (acc1 V c (t.val - 1) (Nat.lt_of_le_of_lt (Nat.sub_le _ _) t.isLt)).2 Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases h0 : t.val = 0
    · rw [acc1_first V c t h0]; dsimp only
      rw [PhiS1_castSucc V c t, PhiS1_zero V c _ _ h0, PhiA1_eq]
      iintro ⟨⟨HS0, HS1, Hr, Hg⟩, Ho, ⟨%d0, H0⟩, ⟨%d1, H1⟩, ⟨%d2, H2⟩⟩
      iapply (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) hc1 (iblk1 V c 0 t) ((dat1 V c).before 1 t d1) ((dat1 V c).before 2 t d2) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexists _; iexact H1
      iexists _; iexact H2
    · rw [acc1_pos V c t h0]; dsimp only
      rw [PhiS1_castSucc V c t, PhiS1_pos V c _ _ h0]
      iintro ⟨⟨HS0, HS1, Hr, Hg⟩, Ho, ⟨%d0, H0⟩, ⟨%d1, H1⟩, ⟨%d2, H2⟩⟩
      iapply (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) hc1 (iblk1 V c 0 t) ((dat1 V c).before 1 t d1) ((dat1 V c).before 2 t d2) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  rw [PhiA1_eq]
  iintro ⟨HS0, HS1, Ho, Hg⟩
  isplitl [HS0]; · iexists _; iexact HS0
  isplitl [HS1]; · iexists _; iexact HS1
  isplitl [Ho]; · iexact Ho
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.K.Reg2.lean ====
import proofs.«428655_j7868380086734_3_alg».proof.Proof.Gen.Kernel.Launch
import proofs.«428655_j7868380086734_3_alg».proof.Proof.Gen.Kernel.Skeleton
import proofs.«428655_j7868380086734_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_blk : Rect S8192x128 := Rect.unit (s := S8192x128) ![0, 0] S8192x128.size inb_S8192x128_S8192x128_0_0
abbrev r2_row : Rect S1x128 := Rect.unit (s := S1x128) ![0, 0] S1x128.size inb_S1x128_S1x128_0_0

def out2_5 (x0 : Vec F S8192x128 .f32) (x1 x2 x3 x4 : Vec F S1x128 .f32) : Vec F S8192x128 .f32 :=
  View.canon [⟨r2_blk, k2_pay1 (View.ld x0 r2_blk) (View.ld x2 r2_row) (View.ld x1 r2_row) (View.ld x3 r2_row) (View.ld x4 r2_row)⟩]

theorem cover2_5 (p0 : Vec F S8192x128 .f32) (y : S8192x128.Idx) :
    ∃ pc ∈ ([⟨r2_blk, p0⟩] : List (View.Piece (Elt F) S8192x128 .f32)), y ∈ pc.1.set :=
  View.cover_of_tiled [⟨r2_blk, p0⟩] S8192x128.size (by rfl) y

set_option maxHeartbeats 1000000 in
theorem sound_kernel2 (c : Dev nD) (E : Set ℕ) (i : grid2.Coords)
    (arg1 : Memref sig .tc .vmem S8192x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S8192x128 .f32) (harg6 : arg6.IsWhole)
    (x0 : Vec F S8192x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«428655_j7868380086734_3_alg».proof.Proof.K.Reg0
import proofs.«428655_j7868380086734_3_alg».proof.Proof.K.Reg1
import proofs.«428655_j7868380086734_3_alg».proof.Proof.K.Reg2
import proofs.«428655_j7868380086734_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

theorem W7_arg (c : Dev nD) (r : Ref sig .tc)
    (h : (∀ w, Pipeline.arrRef spec0 w ≠ r) ∧ (∀ w, Pipeline.arrRef spec1 w ≠ r) ∧ (∀ w, Pipeline.arrRef spec2 w ≠ r)
      ∧ r ∉ hostOps0_W ∧ r ∉ hostOps1_W ∧ r ∉ hostOps2_W ∧ r ∉ hostOps3_W) :
    W7 m c (Proc.devRef .tc r) = m ((c : Thread nD τ).loc r) :=
  calc W7 m c (Proc.devRef .tc r)
    _ = W6 m c (Proc.devRef .tc r) := StableHlo.after_of_writes_sub hostOps3 _ hostOps3_writes h.2.2.2.2.2.2
    _ = W5 m c (Proc.devRef .tc r) := W6_of_ne m c r h.2.2.1
    _ = W4 m c (Proc.devRef .tc r) := StableHlo.after_of_writes_sub hostOps2 _ hostOps2_writes h.2.2.2.2.2.1
    _ = W3 m c (Proc.devRef .tc r) := W4_of_ne m c r h.2.1
    _ = W2 m c (Proc.devRef .tc r) := StableHlo.after_of_writes_sub hostOps1 _ hostOps1_writes h.2.2.2.2.1
    _ = W1 m c (Proc.devRef .tc r) := W2_of_ne m c r h.1
    _ = W0 m c (Proc.devRef .tc r) := StableHlo.after_of_writes_sub hostOps0 _ hostOps0_writes h.2.2.2.1
    _ = m ((c : Thread nD τ).loc r) := rfl

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H1
    ihave H := (hout1 (V3 m) c) $$ H1
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

variable (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v44) = W7 m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v44 (by decide)),
     (h c _ (mem_uc main_arg0 (by decide))).trans (W7_arg m c main_arg0 (by decide)),
     (h c _ (mem_uc main_arg1 (by decide))).trans (W7_arg m c main_arg1 (by decide)),
     (h c _ (mem_uc main_arg2 (by decide))).trans (W7_arg m c main_arg2 (by decide)),
     (h c _ (mem_uc main_arg3 (by decide))).trans (W7_arg m c main_arg3 (by decide)),
     (h c _ (mem_uc main_arg4 (by decide))).trans (W7_arg m c main_arg4 (by decide)),
     (h c _ (mem_uc main_arg5 (by decide))).trans (W7_arg m c main_arg5 (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.Kernel.Hand

end
-- ==== Proof.KI.Reg0.lean ====
import proofs.«428655_j7868380086734_3_alg».proof.Proof.Gen.KernelIdeal.Launch
import proofs.«428655_j7868380086734_3_alg».proof.Proof.Gen.KernelIdeal.Skeleton
import proofs.«428655_j7868380086734_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_lhs : Rect S1x8192x128 := Rect.unit (s := S1x8192x128) ![0, 0, 0] S1x8192x128.size inb_S1x8192x128_S1x8192x128_0_0_0
abbrev r0_rhs : Rect S1x128x128 := Rect.unit (s := S1x128x128) ![0, 0, 0] S1x128x128.size inb_S1x128x128_S1x128x128_0_0_0

def out0_2 (x0 : Vec F S1x8192x128 .bf16) (x1 : Vec F S1x128x128 .bf16) : Vec F S1x8192x128 .bf16 :=
  View.canon [⟨r0_lhs, k0_pay1 (View.ld x0 r0_lhs) (View.ld x1 r0_rhs)⟩]

theorem cover0_2 (p0 : Vec F S1x8192x128 .bf16) (y : S1x8192x128.Idx) :
    ∃ pc ∈ ([⟨r0_lhs, p0⟩] : List (View.Piece (Elt F) S1x8192x128 .bf16)), y ∈ pc.1.set :=
  View.cover_of_tiled [⟨r0_lhs, p0⟩] S1x8192x128.size (by rfl) y

set_option maxHeartbeats 1000000 in
theorem sound_kernel0 (c : Dev nD) (E : Set ℕ) (i : grid0.Coords)
    (arg2 : Memref sig .tc .vmem S1x8192x128 .bf16) (harg2 : arg2.IsWhole)
    (arg3 : Memref sig .tc .vmem S1x128x128 .bf16) (harg3 : arg3.IsWhole)
    (arg4 : Memref sig .tc .vmem S1x8192x128 .bf16) (harg4 : arg4.IsWhole)
    (x0 : Vec F S1x8192x128 .bf16) (x1 : Vec F S1x128x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.Base.lean ====
import proofs.«428655_j7868380086734_3_alg».proof.Proof.Gen.KernelIdeal.Launch
import proofs.«428655_j7868380086734_3_alg».proof.Proof.Gen.KernelIdeal.Skeleton
import proofs.«428655_j7868380086734_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

def acc1 (c : Dev nD) : (n : ℕ) → n < cfg1.N → Vec F S1x128 .f32 × Vec F S1x128 .f32
  | 0, h => (k1_pay4 (iblk1 V c 0 ⟨0, h⟩) (k1_pay1 (F := F)), k1_pay5 (iblk1 V c 0 ⟨0, h⟩) (k1_pay2 (F := F)))
  | n + 1, h => (k1_pay4 (iblk1 V c 0 ⟨n + 1, h⟩) (acc1 c n (Nat.lt_of_succ_lt h)).1,
      k1_pay5 (iblk1 V c 0 ⟨n + 1, h⟩) (acc1 c n (Nat.lt_of_succ_lt h)).2)

theorem acc1_zero (c : Dev nD) (h : 0 < cfg1.N) :
    acc1 V c 0 h = (k1_pay4 (iblk1 V c 0 ⟨0, h⟩) (k1_pay1 (F := F)), k1_pay5 (iblk1 V c 0 ⟨0, h⟩) (k1_pay2 (F := F))) := rfl

theorem acc1_succ (c : Dev nD) (n : ℕ) (h : n + 1 < cfg1.N) :
    acc1 V c (n + 1) h = (k1_pay4 (iblk1 V c 0 ⟨n + 1, h⟩) (acc1 V c n (Nat.lt_of_succ_lt h)).1,
      k1_pay5 (iblk1 V c 0 ⟨n + 1, h⟩) (acc1 V c n (Nat.lt_of_succ_lt h)).2) := rfl

theorem acc1_pos (c : Dev nD) (t : Fin cfg1.N) (hz : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2) := by
  obtain ⟨n, hn⟩ := t
  cases n with
  | zero => exact absurd rfl hz
  | succ n => rfl

end Region1

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev scM1_0 : Memref sig .tc .vmem S1x128 .f32 := Memref.whole cc1_scratch0
abbrev scM1_1 : Memref sig .tc .vmem S1x128 .f32 := Memref.whole cc1_scratch1

end Cert.KernelIdeal.Hand

end
-- ==== Proof.KI.Reg1.Runs.lean ====
import proofs.«428655_j7868380086734_3_alg».proof.Proof.KI.Reg1.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1x128 : (![0, 0] : Fin S1x128.rank → ℕ) = fun _ => 0 := by funext a; fin_cases a <;> rfl
theorem zeros8192x128 : (![0, 0] : Fin S8192x128.rank → ℕ) = fun _ => 0 := by funext a; fin_cases a <;> rfl

theorem readAt_whole_big {κ : Kind} (m : Memref sig κ .vmem S8192x128 .f32) (hm : m.IsWhole) (x : Vec F S8192x128 .f32) :
    View.readAt (Elt F) m.view (Rect.unit (s := S8192x128) ![0, 0] S8192x128.size inb_S8192x128_S8192x128_0_0).toLoadRect (hm.unread x) = x := by
  rw [show View.readAt (Elt F) m.view (Rect.unit (s := S8192x128) ![0, 0] S8192x128.size inb_S8192x128_S8192x128_0_0).toLoadRect (hm.unread x)
      = View.ld (m.view.read (Elt F) (hm.unread x)) (Rect.unit (s := S8192x128) ![0, 0] S8192x128.size inb_S8192x128_S8192x128_0_0) from rfl,
    hm.read_unread, View.ld_unit_zero (S := S8192x128) zeros8192x128 inb_S8192x128_S8192x128_0_0 x]

theorem readAt_whole_small {κ : Kind} (m : Memref sig κ .vmem S1x128 .f32) (hm : m.IsWhole) (x : Vec F S1x128 .f32) :
    View.readAt (Elt F) m.view (Rect.unit (s := S1x128) ![0, 0] S1x128.size inb_S1x128_S1x128_0_0).toLoadRect (hm.unread x) = x := by
  rw [show View.readAt (Elt F) m.view (Rect.unit (s := S1x128) ![0, 0] S1x128.size inb_S1x128_S1x128_0_0).toLoadRect (hm.unread x)
      = View.ld (m.view.read (Elt F) (hm.unread x)) (Rect.unit (s := S1x128) ![0, 0] S1x128.size inb_S1x128_S1x128_0_0) from rfl,
    hm.read_unread, View.ld_unit_zero (S := S1x128) zeros1x128 inb_S1x128_S1x128_0_0 x]

theorem read_writes_last_small {κ : Kind} (v : View sig κ .vmem S1x128 .f32) (f : v.ty.Contents (Elt F)) (w : Vec F S1x128 .f32)
    (L : List (View.Piece (Elt F) S1x128 .f32)) :
    v.read (Elt F) (v.writes (Elt F) f (⟨Rect.unit (s := S1x128) ![0, 0] S1x128.size inb_S1x128_S1x128_0_0, w⟩ :: L)) = w := by
  rw [View.read_writes_eq_canon v f _ (fun y => ⟨⟨Rect.unit (s := S1x128) ![0, 0] S1x128.size inb_S1x128_S1x128_0_0, w⟩, List.mem_cons_self,
      View.mem_set_unit_zero (S := S1x128) zeros1x128 inb_S1x128_S1x128_0_0 y⟩),
    View.canon_cons_unit_zero (S := S1x128) zeros1x128 inb_S1x128_S1x128_0_0 w L]

theorem readCov_last_small {κ : Kind} (v : View sig κ .vmem S1x128 .f32) (w : Vec F S1x128 .f32)
    (L : List (View.Piece (Elt F) S1x128 .f32)) :
    v.readCov (⟨Rect.unit (s := S1x128) ![0, 0] S1x128.size inb_S1x128_S1x128_0_0, w⟩ :: L)
      (Rect.unit (s := S1x128) ![0, 0] S1x128.size inb_S1x128_S1x128_0_0).toLoadRect = w := by
  rw [View.readCov_eq_canon_ld v _ (Rect.unit (s := S1x128) ![0, 0] S1x128.size inb_S1x128_S1x128_0_0)
      (fun y => ⟨⟨Rect.unit (s := S1x128) ![0, 0] S1x128.size inb_S1x128_S1x128_0_0, w⟩, List.mem_cons_self,
      View.mem_set_unit_zero (S := S1x128) zeros1x128 inb_S1x128_S1x128_0_0 y⟩),
    View.canon_cons_unit_zero (S := S1x128) zeros1x128 inb_S1x128_S1x128_0_0 w L, View.ld_unit_zero (S := S1x128) zeros1x128 inb_S1x128_S1x128_0_0 w]

set_option maxHeartbeats 4000000 in
theorem kernelRun1_A (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i)
    (x0 : Vec F S8192x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 (k1_pay1 (F := F))) ∗ owns (c : Thread nD τ) arg5 fullShare (k1_pay5 x0 (k1_pay2 (F := F)))) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    unfold kernelRun1_A.sl.v5 kernelRun1_A.sl.HS0_1
    rw [read_writes_last_small, readAt_whole_big, readCov_last_small]
  iexists _; isplitr
  swap; · iexact HS1
  ipureintro
  unfold kernelRun1_A.sl.v12 kernelRun1_A.sl.HS1_1
  rw [read_writes_last_small, readAt_whole_big, readCov_last_small]

set_option maxHeartbeats 4000000 in
theorem kernelRun1_B (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : ¬cond1_1 i)
    (x0 : Vec F S8192x128 .f32) (xi1 xi2 s0 s1 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare s0 ∗ owns (c : Thread nD τ) arg5 fullShare s1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [read_writes_last_small, readAt_whole_big, readAt_whole_small]
  iexists _; isplitr
  swap; · iexact HS1
  ipureintro
  rw [read_writes_last_small, readAt_whole_big, readAt_whole_small]

set_option maxHeartbeats 4000000 in
theorem kernelRun1_C (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i)
    (x0 : Vec F S8192x128 .f32) (s0 s1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay4 x0 s0) ∗ owns (c : Thread nD τ) arg3 fullShare (k1_pay5 x0 s1)
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    rw [read_writes_last_small]
    unfold kernelRun1_C.sl.v23 kernelRun1_C.sl.HS0_1
    rw [readCov_last_small, readAt_whole_big, readAt_whole_small]
  isplitl [H2]
  · iexists _; isplitr
    swap; · iexact H2
    ipureintro
    rw [read_writes_last_small]
    unfold kernelRun1_C.sl.v25 kernelRun1_C.sl.HS1_1
    rw [readCov_last_small, readAt_whole_big, readAt_whole_small]
  isplitl [HS0]
  · iexists _; isplitr
    swap; · iexact HS0
    ipureintro
    unfold kernelRun1_C.sl.HS0_1
    rw [read_writes_last_small, readAt_whole_big, readAt_whole_small]
  iexists _; isplitr
  swap; · iexact HS1
  ipureintro
  unfold kernelRun1_C.sl.HS1_1
  rw [read_writes_last_small, readAt_whole_big, readAt_whole_small]

end Cert.KernelIdeal.Hand

end
-- ==== Proof.KI.Reg1.lean ====
import proofs.«428655_j7868380086734_3_alg».proof.Proof.KI.Reg1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ others1 (F := F) c ∗ (∃ r, prngReg c r)) := by
  unfold Pipeline.ΦA others1; rw [scopedRest1_eq]; simp only [scM1_0, scM1_1, owns_whole]
  iintro ⟨⟨A1, A2, A3, A4, A5, A6, S0, S1, B⟩, Hg⟩
  isplitl [S0]; · iexact S0
  isplitl [S1]; · iexact S1
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  iexact B

theorem PhiA1_join (c : Dev nD) :
    iprop((∃ d, owns (c : Thread nD τ) scM1_0 fullShare d) ∗ (∃ d, owns (c : Thread nD τ) scM1_1 fullShare d) ∗ others1 (F := F) c ∗ (∃ r, prngReg c r)) ⊢ (Pipeline.ΦA spec1 c : sProp 𝕄) := by
  unfold Pipeline.ΦA others1; rw [scopedRest1_eq]; simp only [scM1_0, scM1_1, owns_whole]
  iintro ⟨S0, S1, ⟨A1, A2, A3, A4, A5, A6, B⟩, Hg⟩
  isplitr [Hg]; swap; · iexact Hg
  isplitl [A1]; · iexact A1
  isplitl [A2]; · iexact A2
  isplitl [A3]; · iexact A3
  isplitl [A4]; · iexact A4
  isplitl [A5]; · iexact A5
  isplitl [A6]; · iexact A6
  isplitl [S0]; · iexact S0
  isplitl [S1]; · iexact S1
  iexact B

theorem PhiA1_eq (c : Dev nD) :
    (Pipeline.ΦA spec1 c : sProp 𝕄) = iprop((∃ d, owns (c : Thread nD τ) scM1_0 fullShare d) ∗ (∃ d, owns (c : Thread nD τ) scM1_1 fullShare d) ∗ others1 (F := F) c ∗ (∃ r, prngReg c r)) :=
  BI.equiv_iff.mp ⟨PhiA1_split c, PhiA1_join c⟩

section Region1
variable (V : (c : Dev nD) → (b : Ref sig .tc) → Buf (Elt F) ((c : Thread nD τ).loc b))

def PhiS1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2 ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (acc1 V c n hn).1 ∗ owns (c : Thread nD τ) scM1_1 fullShare (acc1 V c n hn).2 ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega)).1 ∗ owns (c : Thread nD τ) scM1_1 fullShare (acc1 V c (n - 1) (by omega)).2 ∗ others1 c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]

theorem after1_1_last (c : Dev nD) : (dat1 V c).after 1 ⟨31, by decide⟩ = (acc1 V c 31 (by decide)).1 := by dsimp only [dat1]
theorem after1_2_last (c : Dev nD) : (dat1 V c).after 2 ⟨31, by decide⟩ = (acc1 V c 31 (by decide)).2 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem acc1_first (c : Dev nD) (t : Fin cfg1.N) (hz : t.val = 0) :
    acc1 V c t.val t.isLt = (k1_pay4 (iblk1 V c 0 t) (k1_pay1 (F := F)), k1_pay5 (iblk1 V c 0 t) (k1_pay2 (F := F))) := by
  obtain ⟨n, hn⟩ := t
  cases n with
  | zero => rfl
  | succ n => exact absurd hz (Nat.succ_ne_zero n)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  by_cases h1 : t.val = 31
  · have h0 : t.val ≠ 0 := by omega
    rw [show (dat1 V c).leavesExact 1 t = owns (c : Thread nD τ) (ms1_1 t) fullShare ((dat1 V c).after 1 t) from by
      unfold Dat.leavesExact; rw [liveAt1_1 t ((hcond1_1 t).mpr h1)], after1_1]
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_pos V c t h0]; dsimp only
    rw [PhiS1_castSucc V c t, PhiS1_pos V c _ _ h0]
    iintro ⟨⟨HS0, HS1, Hr, Hg⟩, Ho, ⟨%d0, H0⟩, ⟨%d1, H1⟩, ⟨%d2, H2⟩⟩
    iapply (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (acc1 V c (t.val - 1) (Nat.lt_of_le_of_lt (Nat.sub_le _ _) t.isLt)).1 (acc1 V c (t.val - 1) (Nat.lt_of_le_of_lt (Nat.sub_le _ _) t.isLt)).2 Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases h0 : t.val = 0
    · rw [acc1_first V c t h0]; dsimp only
      rw [PhiS1_castSucc V c t, PhiS1_zero V c _ _ h0, PhiA1_eq]
      iintro ⟨⟨HS0, HS1, Hr, Hg⟩, Ho, ⟨%d0, H0⟩, ⟨%d1, H1⟩, ⟨%d2, H2⟩⟩
      iapply (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) hc1 (iblk1 V c 0 t) ((dat1 V c).before 1 t d1) ((dat1 V c).before 2 t d2) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexists _; iexact H1
      iexists _; iexact H2
    · rw [acc1_pos V c t h0]; dsimp only
      rw [PhiS1_castSucc V c t, PhiS1_pos V c _ _ h0]
      iintro ⟨⟨HS0, HS1, Hr, Hg⟩, Ho, ⟨%d0, H0⟩, ⟨%d1, H1⟩, ⟨%d2, H2⟩⟩
      iapply (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) hc1 (iblk1 V c 0 t) ((dat1 V c).before 1 t d1) ((dat1 V c).before 2 t d2) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  rw [PhiA1_eq]
  iintro ⟨HS0, HS1, Ho, Hg⟩
  isplitl [HS0]; · iexists _; iexact HS0
  isplitl [HS1]; · iexists _; iexact HS1
  isplitl [Ho]; · iexact Ho
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.KI.Reg2.lean ====
import proofs.«428655_j7868380086734_3_alg».proof.Proof.Gen.KernelIdeal.Launch
import proofs.«428655_j7868380086734_3_alg».proof.Proof.Gen.KernelIdeal.Skeleton
import proofs.«428655_j7868380086734_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_blk : Rect S8192x128 := Rect.unit (s := S8192x128) ![0, 0] S8192x128.size inb_S8192x128_S8192x128_0_0
abbrev r2_row : Rect S1x128 := Rect.unit (s := S1x128) ![0, 0] S1x128.size inb_S1x128_S1x128_0_0

def out2_5 (x0 : Vec F S8192x128 .f32) (x1 x2 x3 x4 : Vec F S1x128 .f32) : Vec F S8192x128 .f32 :=
  View.canon [⟨r2_blk, k2_pay1 (View.ld x0 r2_blk) (View.ld x2 r2_row) (View.ld x1 r2_row) (View.ld x3 r2_row) (View.ld x4 r2_row)⟩]

theorem cover2_5 (p0 : Vec F S8192x128 .f32) (y : S8192x128.Idx) :
    ∃ pc ∈ ([⟨r2_blk, p0⟩] : List (View.Piece (Elt F) S8192x128 .f32)), y ∈ pc.1.set :=
  View.cover_of_tiled [⟨r2_blk, p0⟩] S8192x128.size (by rfl) y

set_option maxHeartbeats 1000000 in
theorem sound_kernel2 (c : Dev nD) (E : Set ℕ) (i : grid2.Coords)
    (arg1 : Memref sig .tc .vmem S8192x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S8192x128 .f32) (harg6 : arg6.IsWhole)
    (x0 : Vec F S8192x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«428655_j7868380086734_3_alg».proof.Proof.KI.Reg0
import proofs.«428655_j7868380086734_3_alg».proof.Proof.KI.Reg1
import proofs.«428655_j7868380086734_3_alg».proof.Proof.KI.Reg2
import proofs.«428655_j7868380086734_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

theorem W7_arg (c : Dev nD) (r : Ref sig .tc)
    (h : (∀ w, Pipeline.arrRef spec0 w ≠ r) ∧ (∀ w, Pipeline.arrRef spec1 w ≠ r) ∧ (∀ w, Pipeline.arrRef spec2 w ≠ r)
      ∧ r ∉ hostOps0_W ∧ r ∉ hostOps1_W ∧ r ∉ hostOps2_W ∧ r ∉ hostOps3_W) :
    W7 m c (Proc.devRef .tc r) = m ((c : Thread nD τ).loc r) :=
  calc W7 m c (Proc.devRef .tc r)
    _ = W6 m c (Proc.devRef .tc r) := StableHlo.after_of_writes_sub hostOps3 _ hostOps3_writes h.2.2.2.2.2.2
    _ = W5 m c (Proc.devRef .tc r) := W6_of_ne m c r h.2.2.1
    _ = W4 m c (Proc.devRef .tc r) := StableHlo.after_of_writes_sub hostOps2 _ hostOps2_writes h.2.2.2.2.2.1
    _ = W3 m c (Proc.devRef .tc r) := W4_of_ne m c r h.2.1
    _ = W2 m c (Proc.devRef .tc r) := StableHlo.after_of_writes_sub hostOps1 _ hostOps1_writes h.2.2.2.2.1
    _ = W1 m c (Proc.devRef .tc r) := W2_of_ne m c r h.1
    _ = W0 m c (Proc.devRef .tc r) := StableHlo.after_of_writes_sub hostOps0 _ hostOps0_writes h.2.2.2.1
    _ = m ((c : Thread nD τ).loc r) := rfl

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H1
    ihave H := (hout1 (V3 m) c) $$ H1
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

variable (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v44) = W7 m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v44 (by decide)),
     (h c _ (mem_uc main_arg0 (by decide))).trans (W7_arg m c main_arg0 (by decide)),
     (h c _ (mem_uc main_arg1 (by decide))).trans (W7_arg m c main_arg1 (by decide)),
     (h c _ (mem_uc main_arg2 (by decide))).trans (W7_arg m c main_arg2 (by decide)),
     (h c _ (mem_uc main_arg3 (by decide))).trans (W7_arg m c main_arg3 (by decide)),
     (h c _ (mem_uc main_arg4 (by decide))).trans (W7_arg m c main_arg4 (by decide)),
     (h c _ (mem_uc main_arg5 (by decide))).trans (W7_arg m c main_arg5 (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.KernelIdeal.Hand

end
-- ==== Proof.R.Base.lean ====
import proofs.«428655_j7868380086734_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

-- A line run from its `n`-th operation on is its next 60 operations, then the rest.
theorem seq_drop {nD : Nat} {Λ : Labels} (l : List (HloOp τ sig (Elt F))) (n m : ℕ) (h : n + 60 = m) :
    (seq (l.drop n) : Prog (TpuEff nD τ sig (Elt F) Λ .tc) PUnit)
      = seq ((l.drop n).take 60) >>= fun _ => seq (l.drop m) := by
  rw [← seq_append, ← h, ← List.drop_drop, List.take_append_drop]

structure ArgsKept (V V0 : Valuation τ sig (Elt F)) : Prop where
  a0 : V (main_arg0 : DevRef τ sig) = V0 (main_arg0 : DevRef τ sig)
  a1 : V (main_arg1 : DevRef τ sig) = V0 (main_arg1 : DevRef τ sig)
  a2 : V (main_arg2 : DevRef τ sig) = V0 (main_arg2 : DevRef τ sig)
  a3 : V (main_arg3 : DevRef τ sig) = V0 (main_arg3 : DevRef τ sig)
  a4 : V (main_arg4 : DevRef τ sig) = V0 (main_arg4 : DevRef τ sig)
  a5 : V (main_arg5 : DevRef τ sig) = V0 (main_arg5 : DevRef τ sig)

abbrev argRefs : List (Ref sig .tc) := [main_arg0, main_arg1, main_arg2, main_arg3, main_arg4, main_arg5]

-- A line that writes none of the six arguments keeps them.
theorem ArgsKept.after {ops : List (HloOp τ sig (Elt F))} {W : List (Ref sig .tc)}
    (hW : ops.Forall fun op => op.writes ⊆ (W.map (Proc.devRef (τ := τ) .tc)).toFinset)
    (hr : ∀ r ∈ argRefs, r ∉ W) {V V0 : Valuation τ sig (Elt F)} (h : ArgsKept V V0) :
    ArgsKept (StableHlo.after ops V) V0 :=
  ⟨(after_of_writes_sub (r := main_arg0) ops V hW (hr _ (by decide))).trans h.a0,
    (after_of_writes_sub (r := main_arg1) ops V hW (hr _ (by decide))).trans h.a1,
    (after_of_writes_sub (r := main_arg2) ops V hW (hr _ (by decide))).trans h.a2,
    (after_of_writes_sub (r := main_arg3) ops V hW (hr _ (by decide))).trans h.a3,
    (after_of_writes_sub (r := main_arg4) ops V hW (hr _ (by decide))).trans h.a4,
    (after_of_writes_sub (r := main_arg5) ops V hW (hr _ (by decide))).trans h.a5⟩

macro "writes_mem" : tactic =>
  `(tactic| (simp only [nullary_writes, unary_writes, binary_writes, ternary_writes, reshape_writes,
      Finset.singleton_subset_iff, List.mem_toFinset]
             exact List.mem_map_of_mem (by first | decide | simp only [List.mem_cons, true_or, or_true])))

end Cert.ReferenceIdeal.Hand

end
-- ==== Proof.R.Ops.lean ====
import proofs.«428655_j7868380086734_3_alg».proof.Proof.R.Base

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsHead : List (HloOp τ sig (Elt F)) :=
  [ nullary main_cst (constant S_ .f32 0x00000000#32),
    unary main_cst main_v0 (broadcastInDim S524288x64 ![] bcast_S_S524288x64 : (⟨S_, .f32⟩ : BufTy).Contents (Elt F) → (⟨S524288x64, .f32⟩ : BufTy).Contents (Elt F)) ]

abbrev a0 : TRef sig ⟨S524288x64, .f32⟩ := .of main_arg0
abbrev a1 : TRef sig ⟨S27x64x64, .f32⟩ := .of main_arg1
abbrev a4 : TRef sig ⟨S27x131072, .i32⟩ := .of main_arg4
abbrev a5 : TRef sig ⟨S27x131072, .i32⟩ := .of main_arg5

-- One trip of the unrolled loop: the row it slices, the accumulator it reads, and the buffers it writes, in order.
structure Trip where
  st4 : Fin 2 → ℕ
  h4 : S27x131072.Slices st4 S1x131072
  stW : Fin 3 → ℕ
  hW : S27x64x64.Slices stW S1x64x64
  acc : TRef sig ⟨S524288x64, .f32⟩
  v1 : TRef sig ⟨S1x131072, .i32⟩
  v2 : TRef sig ⟨S131072, .i32⟩
  c0 : TRef sig ⟨S_, .i32⟩
  v3 : TRef sig ⟨S131072, .i32⟩
  v4 : TRef sig ⟨S131072, .i1⟩
  c1 : TRef sig ⟨S_, .i32⟩
  v5 : TRef sig ⟨S131072, .i32⟩
  v6 : TRef sig ⟨S131072, .i32⟩
  v7 : TRef sig ⟨S131072, .i32⟩
  v8 : TRef sig ⟨S131072x1, .i32⟩
  v9 : TRef sig ⟨S131072x64, .f32⟩
  v10 : TRef sig ⟨S1x64x64, .f32⟩
  v11 : TRef sig ⟨S64x64, .f32⟩
  v12 : TRef sig ⟨S131072x64, .f32⟩
  v13 : TRef sig ⟨S1x131072, .i32⟩
  v14 : TRef sig ⟨S131072, .i32⟩
  c2 : TRef sig ⟨S_, .i32⟩
  v15 : TRef sig ⟨S131072, .i32⟩
  v16 : TRef sig ⟨S131072, .i1⟩
  c3 : TRef sig ⟨S_, .i32⟩
  v17 : TRef sig ⟨S131072, .i32⟩
  v18 : TRef sig ⟨S131072, .i32⟩
  v19 : TRef sig ⟨S131072, .i32⟩
  v20 : TRef sig ⟨S131072x1, .i32⟩
  out : TRef sig ⟨S524288x64, .f32⟩

namespace Trip

abbrev ops (t : Trip) : List (HloOp τ sig (Elt F)) :=
  [ TRef.unary a4 t.v1 (extractStridedSlice S1x131072 t.st4 · t.h4),
    TRef.reshape t.v1 t.v2 rfl shapeCasts_S1x131072_S131072,
    TRef.nullary t.c0 (constantI S_ 32 0#32),
    TRef.unary t.c0 t.v3 (broadcastInDim S131072 ![] bcast_S_S131072),
    TRef.binary t.v2 t.v3 t.v4 (cmpi .slt),
    TRef.nullary t.c1 (constantI S_ 32 524288#32),
    TRef.unary t.c1 t.v5 (broadcastInDim S131072 ![] bcast_S_S131072),
    TRef.binary t.v2 t.v5 t.v6 addi,
    TRef.ternary t.v4 t.v6 t.v2 t.v7 select,
    TRef.unary t.v7 t.v8 (broadcastInDim S131072x1 ![0] bcast_S131072_S131072x1_0),
    TRef.binary a0 t.v8 t.v9 (fun x i => Host.gather gather_S524288x64_S131072x1_S131072x64_1_0_n_n_0_1_164 x i),
    TRef.unary a1 t.v10 (extractStridedSlice S1x64x64 t.stW · t.hW),
    TRef.reshape t.v10 t.v11 rfl shapeCasts_S1x64x64_S64x64,
    TRef.binary t.v9 t.v11 t.v12 (fun l r => Host.dotGeneral dot_S131072x64_S64x64_S131072x64_1_0_0_1_n_n none l r),
    TRef.unary a5 t.v13 (extractStridedSlice S1x131072 t.st4 · t.h4),
    TRef.reshape t.v13 t.v14 rfl shapeCasts_S1x131072_S131072,
    TRef.nullary t.c2 (constantI S_ 32 0#32),
    TRef.unary t.c2 t.v15 (broadcastInDim S131072 ![] bcast_S_S131072),
    TRef.binary t.v14 t.v15 t.v16 (cmpi .slt),
    TRef.nullary t.c3 (constantI S_ 32 524288#32),
    TRef.unary t.c3 t.v17 (broadcastInDim S131072 ![] bcast_S_S131072),
    TRef.binary t.v14 t.v17 t.v18 addi,
    TRef.ternary t.v16 t.v18 t.v14 t.v19 select,
    TRef.unary t.v19 t.v20 (broadcastInDim S131072x1 ![0] bcast_S131072_S131072x1_0),
    TRef.ternary t.acc t.v20 t.v12 t.out (fun x i u => Host.scatterAdd scatter_S524288x64_S131072x1_S131072x64_1_0_0_1 x i u) ]

abbrev written (t : Trip) : List (Ref sig .tc) :=
  [t.v1.ref, t.v2.ref, t.c0.ref, t.v3.ref, t.v4.ref, t.c1.ref, t.v5.ref, t.v6.ref, t.v7.ref, t.v8.ref, t.v9.ref, t.v10.ref, t.v11.ref, t.v12.ref, t.v13.ref, t.v14.ref, t.c2.ref, t.v15.ref, t.v16.ref, t.c3.ref, t.v17.ref, t.v18.ref, t.v19.ref, t.v20.ref, t.out.ref]

theorem sub (t : Trip) : (t.ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    ternary_bufs_sub ..⟩

theorem fresh (t : Trip) : (t.ops : List (HloOp τ sig (Elt F))).Forall fun op => op.fresh = ∅ := by
  simp only [List.Forall]; repeat' constructor

theorem writes (t : Trip) : (t.ops : List (HloOp τ sig (Elt F))).Forall fun op =>
    op.writes ⊆ (t.written.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;> writes_mem

end Trip

abbrev opsTail : List (HloOp τ sig (Elt F)) :=
  [ nullary main_cst_107 (constant S_ .f32 0x00000000#32),
    binary main_v567 main_cst_107 main_v568 ((fun x v => Host.reduceAdd x v reducesTo_S524288x64_S64_d0 h_S_) : (⟨S524288x64, .f32⟩ : BufTy).Contents (Elt F) → (⟨S_, .f32⟩ : BufTy).Contents (Elt F) → (⟨S64, .f32⟩ : BufTy).Contents (Elt F)),
    nullary main_cst_108 (constant S_ .f32 0x49000000#32),
    unary main_cst_108 main_v569 (broadcastInDim S64 ![] bcast_S_S64 : (⟨S_, .f32⟩ : BufTy).Contents (Elt F) → (⟨S64, .f32⟩ : BufTy).Contents (Elt F)),
    binary main_v568 main_v569 main_v570 (Host.divf : (⟨S64, .f32⟩ : BufTy).Contents (Elt F) → (⟨S64, .f32⟩ : BufTy).Contents (Elt F) → (⟨S64, .f32⟩ : BufTy).Contents (Elt F)),
    nullary main_c_109 (constantI S_ 32 0#32),
    TRef.nullary main_call0.cst (constant S_ .f32 0x00000000#32),
    TRef.binary (.of main_v567 : StableHlo.TRef sig ⟨S524288x64, .f32⟩) main_call0.cst main_call0.v0 (fun x v => Host.reduceAdd x v reducesTo_S524288x64_S64_d0 h_S_),
    TRef.unary main_call0.v0 main_call0.v1 (broadcastInDim S1x64 ![1] bcast_S64_S1x64_1),
    TRef.nullary main_call0.cst_0 (constant S_ .f32 0x49000000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S524288x64 ![0, 1] bcast_S1x64_S524288x64_0_1),
    TRef.binary (.of main_v567 : StableHlo.TRef sig ⟨S524288x64, .f32⟩) main_call0.v4 main_call0.v5 subf,
    TRef.binary main_call0.v5 main_call0.v5 main_call0.v6 mulf,
    TRef.unary (.of main_c_109 : StableHlo.TRef sig ⟨S_, .i32⟩) main_call0.v7 (sitofp .f32),
    TRef.nullary main_call0.cst_1 (constant S_ .f32 0x49000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S524288x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v570 main_v572 (broadcastInDim S1x64 ![1] bcast_S64_S1x64_1 : (⟨S64, .f32⟩ : BufTy).Contents (Elt F) → (⟨S1x64, .f32⟩ : BufTy).Contents (Elt F)),
    unary main_v572 main_v573 (broadcastInDim S524288x64 ![0, 1] bcast_S1x64_S524288x64_0_1 : (⟨S1x64, .f32⟩ : BufTy).Contents (Elt F) → (⟨S524288x64, .f32⟩ : BufTy).Contents (Elt F)),
    binary main_v567 main_v573 main_v574 (subf : (⟨S524288x64, .f32⟩ : BufTy).Contents (Elt F) → (⟨S524288x64, .f32⟩ : BufTy).Contents (Elt F) → (⟨S524288x64, .f32⟩ : BufTy).Contents (Elt F)),
    nullary main_cst_110 (constant S_ .f32 0x3727C5AC#32),
    unary main_cst_110 main_v575 (broadcastInDim S64 ![] bcast_S_S64 : (⟨S_, .f32⟩ : BufTy).Contents (Elt F) → (⟨S64, .f32⟩ : BufTy).Contents (Elt F)),
    binary main_v571 main_v575 main_v576 (addf : (⟨S64, .f32⟩ : BufTy).Contents (Elt F) → (⟨S64, .f32⟩ : BufTy).Contents (Elt F) → (⟨S64, .f32⟩ : BufTy).Contents (Elt F)),
    unary main_v576 main_v577 (Host.rsqrt : (⟨S64, .f32⟩ : BufTy).Contents (Elt F) → (⟨S64, .f32⟩ : BufTy).Contents (Elt F)),
    unary main_v577 main_v578 (broadcastInDim S1x64 ![1] bcast_S64_S1x64_1 : (⟨S64, .f32⟩ : BufTy).Contents (Elt F) → (⟨S1x64, .f32⟩ : BufTy).Contents (Elt F)),
    unary main_v578 main_v579 (broadcastInDim S524288x64 ![0, 1] bcast_S1x64_S524288x64_0_1 : (⟨S1x64, .f32⟩ : BufTy).Contents (Elt F) → (⟨S524288x64, .f32⟩ : BufTy).Contents (Elt F)),
    binary main_v574 main_v579 main_v580 (mulf : (⟨S524288x64, .f32⟩ : BufTy).Contents (Elt F) → (⟨S524288x64, .f32⟩ : BufTy).Contents (Elt F) → (⟨S524288x64, .f32⟩ : BufTy).Contents (Elt F)),
    unary main_arg2 main_v581 (broadcastInDim S1x64 ![1] bcast_S64_S1x64_1 : (⟨S64, .f32⟩ : BufTy).Contents (Elt F) → (⟨S1x64, .f32⟩ : BufTy).Contents (Elt F)),
    unary main_v581 main_v582 (broadcastInDim S524288x64 ![0, 1] bcast_S1x64_S524288x64_0_1 : (⟨S1x64, .f32⟩ : BufTy).Contents (Elt F) → (⟨S524288x64, .f32⟩ : BufTy).Contents (Elt F)),
    binary main_v580 main_v582 main_v583 (mulf : (⟨S524288x64, .f32⟩ : BufTy).Contents (Elt F) → (⟨S524288x64, .f32⟩ : BufTy).Contents (Elt F) → (⟨S524288x64, .f32⟩ : BufTy).Contents (Elt F)),
    unary main_arg3 main_v584 (broadcastInDim S1x64 ![1] bcast_S64_S1x64_1 : (⟨S64, .f32⟩ : BufTy).Contents (Elt F) → (⟨S1x64, .f32⟩ : BufTy).Contents (Elt F)),
    unary main_v584 main_v585 (broadcastInDim S524288x64 ![0, 1] bcast_S1x64_S524288x64_0_1 : (⟨S1x64, .f32⟩ : BufTy).Contents (Elt F) → (⟨S524288x64, .f32⟩ : BufTy).Contents (Elt F)),
    binary main_v583 main_v585 main_v586 (addf : (⟨S524288x64, .f32⟩ : BufTy).Contents (Elt F) → (⟨S524288x64, .f32⟩ : BufTy).Contents (Elt F) → (⟨S524288x64, .f32⟩ : BufTy).Contents (Elt F)),
    nullary main_cst_111 (constant S_ .f32 0x00000000#32),
    unary main_cst_111 main_v587 (broadcastInDim S524288x64 ![] bcast_S_S524288x64 : (⟨S_, .f32⟩ : BufTy).Contents (Elt F) → (⟨S524288x64, .f32⟩ : BufTy).Contents (Elt F)),
    binary main_v586 main_v587 main_v588 (maximumf : (⟨S524288x64, .f32⟩ : BufTy).Contents (Elt F) → (⟨S524288x64, .f32⟩ : BufTy).Contents (Elt F) → (⟨S524288x64, .f32⟩ : BufTy).Contents (Elt F)) ]

theorem head_sub : (opsHead : List (HloOp τ sig (Elt F))).Forall fun op => op.bufs ⊆ tcRefs τ sig :=
  ⟨nullary_bufs_sub .., unary_bufs_sub ..⟩
theorem head_fresh : (opsHead : List (HloOp τ sig (Elt F))).Forall fun op => op.fresh = ∅ := by
  simp only [List.Forall]; repeat' constructor

theorem tail_sub : (opsTail : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem tail_fresh : (opsTail : List (HloOp τ sig (Elt F))).Forall fun op => op.fresh = ∅ := by
  simp only [List.Forall]; repeat' constructor

end Cert.ReferenceIdeal.Hand

end
-- ==== Proof.R.TripTable.lean ====
import proofs.«428655_j7868380086734_3_alg».proof.Proof.R.Ops

noncomputable section

namespace Cert.ReferenceIdeal.Hand

open Cert.ReferenceIdeal Cert.ReferenceIdeal.Gen Idealize.ShloMosaic Idealize.ShloMosaic.StableHlo

abbrev trip0 : Trip := ⟨![0, 0], slices_S27x131072_S1x131072_0_0, ![0, 0, 0], slices_S27x64x64_S1x64x64_0_0_0,
  .of main_v0, .of main_v1, .of main_v2, .of main_c, .of main_v3, .of main_v4, .of main_c_0, .of main_v5, .of main_v6, .of main_v7, .of main_v8, .of main_v9, .of main_v10, .of main_v11, .of main_v12, .of main_v13, .of main_v14, .of main_c_1, .of main_v15, .of main_v16, .of main_c_2, .of main_v17, .of main_v18, .of main_v19, .of main_v20, .of main_v21⟩
abbrev trip1 : Trip := ⟨![1, 0], slices_S27x131072_S1x131072_1_0, ![1, 0, 0], slices_S27x64x64_S1x64x64_1_0_0,
  .of main_v21, .of main_v22, .of main_v23, .of main_c_3, .of main_v24, .of main_v25, .of main_c_4, .of main_v26, .of main_v27, .of main_v28, .of main_v29, .of main_v30, .of main_v31, .of main_v32, .of main_v33, .of main_v34, .of main_v35, .of main_c_5, .of main_v36, .of main_v37, .of main_c_6, .of main_v38, .of main_v39, .of main_v40, .of main_v41, .of main_v42⟩
abbrev trip2 : Trip := ⟨![2, 0], slices_S27x131072_S1x131072_2_0, ![2, 0, 0], slices_S27x64x64_S1x64x64_2_0_0,
  .of main_v42, .of main_v43, .of main_v44, .of main_c_7, .of main_v45, .of main_v46, .of main_c_8, .of main_v47, .of main_v48, .of main_v49, .of main_v50, .of main_v51, .of main_v52, .of main_v53, .of main_v54, .of main_v55, .of main_v56, .of main_c_9, .of main_v57, .of main_v58, .of main_c_10, .of main_v59, .of main_v60, .of main_v61, .of main_v62, .of main_v63⟩
abbrev trip3 : Trip := ⟨![3, 0], slices_S27x131072_S1x131072_3_0, ![3, 0, 0], slices_S27x64x64_S1x64x64_3_0_0,
  .of main_v63, .of main_v64, .of main_v65, .of main_c_11, .of main_v66, .of main_v67, .of main_c_12, .of main_v68, .of main_v69, .of main_v70, .of main_v71, .of main_v72, .of main_v73, .of main_v74, .of main_v75, .of main_v76, .of main_v77, .of main_c_13, .of main_v78, .of main_v79, .of main_c_14, .of main_v80, .of main_v81, .of main_v82, .of main_v83, .of main_v84⟩
abbrev trip4 : Trip := ⟨![4, 0], slices_S27x131072_S1x131072_4_0, ![4, 0, 0], slices_S27x64x64_S1x64x64_4_0_0,
  .of main_v84, .of main_v85, .of main_v86, .of main_c_15, .of main_v87, .of main_v88, .of main_c_16, .of main_v89, .of main_v90, .of main_v91, .of main_v92, .of main_v93, .of main_v94, .of main_v95, .of main_v96, .of main_v97, .of main_v98, .of main_c_17, .of main_v99, .of main_v100, .of main_c_18, .of main_v101, .of main_v102, .of main_v103, .of main_v104, .of main_v105⟩
abbrev trip5 : Trip := ⟨![5, 0], slices_S27x131072_S1x131072_5_0, ![5, 0, 0], slices_S27x64x64_S1x64x64_5_0_0,
  .of main_v105, .of main_v106, .of main_v107, .of main_c_19, .of main_v108, .of main_v109, .of main_c_20, .of main_v110, .of main_v111, .of main_v112, .of main_v113, .of main_v114, .of main_v115, .of main_v116, .of main_v117, .of main_v118, .of main_v119, .of main_c_21, .of main_v120, .of main_v121, .of main_c_22, .of main_v122, .of main_v123, .of main_v124, .of main_v125, .of main_v126⟩
abbrev trip6 : Trip := ⟨![6, 0], slices_S27x131072_S1x131072_6_0, ![6, 0, 0], slices_S27x64x64_S1x64x64_6_0_0,
  .of main_v126, .of main_v127, .of main_v128, .of main_c_23, .of main_v129, .of main_v130, .of main_c_24, .of main_v131, .of main_v132, .of main_v133, .of main_v134, .of main_v135, .of main_v136, .of main_v137, .of main_v138, .of main_v139, .of main_v140, .of main_c_25, .of main_v141, .of main_v142, .of main_c_26, .of main_v143, .of main_v144, .of main_v145, .of main_v146, .of main_v147⟩
abbrev trip7 : Trip := ⟨![7, 0], slices_S27x131072_S1x131072_7_0, ![7, 0, 0], slices_S27x64x64_S1x64x64_7_0_0,
  .of main_v147, .of main_v148, .of main_v149, .of main_c_27, .of main_v150, .of main_v151, .of main_c_28, .of main_v152, .of main_v153, .of main_v154, .of main_v155, .of main_v156, .of main_v157, .of main_v158, .of main_v159, .of main_v160, .of main_v161, .of main_c_29, .of main_v162, .of main_v163, .of main_c_30, .of main_v164, .of main_v165, .of main_v166, .of main_v167, .of main_v168⟩
abbrev trip8 : Trip := ⟨![8, 0], slices_S27x131072_S1x131072_8_0, ![8, 0, 0], slices_S27x64x64_S1x64x64_8_0_0,
  .of main_v168, .of main_v169, .of main_v170, .of main_c_31, .of main_v171, .of main_v172, .of main_c_32, .of main_v173, .of main_v174, .of main_v175, .of main_v176, .of main_v177, .of main_v178, .of main_v179, .of main_v180, .of main_v181, .of main_v182, .of main_c_33, .of main_v183, .of main_v184, .of main_c_34, .of main_v185, .of main_v186, .of main_v187, .of main_v188, .of main_v189⟩
abbrev trip9 : Trip := ⟨![9, 0], slices_S27x131072_S1x131072_9_0, ![9, 0, 0], slices_S27x64x64_S1x64x64_9_0_0,
  .of main_v189, .of main_v190, .of main_v191, .of main_c_35, .of main_v192, .of main_v193, .of main_c_36, .of main_v194, .of main_v195, .of main_v196, .of main_v197, .of main_v198, .of main_v199, .of main_v200, .of main_v201, .of main_v202, .of main_v203, .of main_c_37, .of main_v204, .of main_v205, .of main_c_38, .of main_v206, .of main_v207, .of main_v208, .of main_v209, .of main_v210⟩
abbrev trip10 : Trip := ⟨![10, 0], slices_S27x131072_S1x131072_10_0, ![10, 0, 0], slices_S27x64x64_S1x64x64_10_0_0,
  .of main_v210, .of main_v211, .of main_v212, .of main_c_39, .of main_v213, .of main_v214, .of main_c_40, .of main_v215, .of main_v216, .of main_v217, .of main_v218, .of main_v219, .of main_v220, .of main_v221, .of main_v222, .of main_v223, .of main_v224, .of main_c_41, .of main_v225, .of main_v226, .of main_c_42, .of main_v227, .of main_v228, .of main_v229, .of main_v230, .of main_v231⟩
abbrev trip11 : Trip := ⟨![11, 0], slices_S27x131072_S1x131072_11_0, ![11, 0, 0], slices_S27x64x64_S1x64x64_11_0_0,
  .of main_v231, .of main_v232, .of main_v233, .of main_c_43, .of main_v234, .of main_v235, .of main_c_44, .of main_v236, .of main_v237, .of main_v238, .of main_v239, .of main_v240, .of main_v241, .of main_v242, .of main_v243, .of main_v244, .of main_v245, .of main_c_45, .of main_v246, .of main_v247, .of main_c_46, .of main_v248, .of main_v249, .of main_v250, .of main_v251, .of main_v252⟩
abbrev trip12 : Trip := ⟨![12, 0], slices_S27x131072_S1x131072_12_0, ![12, 0, 0], slices_S27x64x64_S1x64x64_12_0_0,
  .of main_v252, .of main_v253, .of main_v254, .of main_c_47, .of main_v255, .of main_v256, .of main_c_48, .of main_v257, .of main_v258, .of main_v259, .of main_v260, .of main_v261, .of main_v262, .of main_v263, .of main_v264, .of main_v265, .of main_v266, .of main_c_49, .of main_v267, .of main_v268, .of main_c_50, .of main_v269, .of main_v270, .of main_v271, .of main_v272, .of main_v273⟩
abbrev trip13 : Trip := ⟨![13, 0], slices_S27x131072_S1x131072_13_0, ![13, 0, 0], slices_S27x64x64_S1x64x64_13_0_0,
  .of main_v273, .of main_v274, .of main_v275, .of main_c_51, .of main_v276, .of main_v277, .of main_c_52, .of main_v278, .of main_v279, .of main_v280, .of main_v281, .of main_v282, .of main_v283, .of main_v284, .of main_v285, .of main_v286, .of main_v287, .of main_c_53, .of main_v288, .of main_v289, .of main_c_54, .of main_v290, .of main_v291, .of main_v292, .of main_v293, .of main_v294⟩
abbrev trip14 : Trip := ⟨![14, 0], slices_S27x131072_S1x131072_14_0, ![14, 0, 0], slices_S27x64x64_S1x64x64_14_0_0,
  .of main_v294, .of main_v295, .of main_v296, .of main_c_55, .of main_v297, .of main_v298, .of main_c_56, .of main_v299, .of main_v300, .of main_v301, .of main_v302, .of main_v303, .of main_v304, .of main_v305, .of main_v306, .of main_v307, .of main_v308, .of main_c_57, .of main_v309, .of main_v310, .of main_c_58, .of main_v311, .of main_v312, .of main_v313, .of main_v314, .of main_v315⟩
abbrev trip15 : Trip := ⟨![15, 0], slices_S27x131072_S1x131072_15_0, ![15, 0, 0], slices_S27x64x64_S1x64x64_15_0_0,
  .of main_v315, .of main_v316, .of main_v317, .of main_c_59, .of main_v318, .of main_v319, .of main_c_60, .of main_v320, .of main_v321, .of main_v322, .of main_v323, .of main_v324, .of main_v325, .of main_v326, .of main_v327, .of main_v328, .of main_v329, .of main_c_61, .of main_v330, .of main_v331, .of main_c_62, .of main_v332, .of main_v333, .of main_v334, .of main_v335, .of main_v336⟩
abbrev trip16 : Trip := ⟨![16, 0], slices_S27x131072_S1x131072_16_0, ![16, 0, 0], slices_S27x64x64_S1x64x64_16_0_0,
  .of main_v336, .of main_v337, .of main_v338, .of main_c_63, .of main_v339, .of main_v340, .of main_c_64, .of main_v341, .of main_v342, .of main_v343, .of main_v344, .of main_v345, .of main_v346, .of main_v347, .of main_v348, .of main_v349, .of main_v350, .of main_c_65, .of main_v351, .of main_v352, .of main_c_66, .of main_v353, .of main_v354, .of main_v355, .of main_v356, .of main_v357⟩
abbrev trip17 : Trip := ⟨![17, 0], slices_S27x131072_S1x131072_17_0, ![17, 0, 0], slices_S27x64x64_S1x64x64_17_0_0,
  .of main_v357, .of main_v358, .of main_v359, .of main_c_67, .of main_v360, .of main_v361, .of main_c_68, .of main_v362, .of main_v363, .of main_v364, .of main_v365, .of main_v366, .of main_v367, .of main_v368, .of main_v369, .of main_v370, .of main_v371, .of main_c_69, .of main_v372, .of main_v373, .of main_c_70, .of main_v374, .of main_v375, .of main_v376, .of main_v377, .of main_v378⟩
abbrev trip18 : Trip := ⟨![18, 0], slices_S27x131072_S1x131072_18_0, ![18, 0, 0], slices_S27x64x64_S1x64x64_18_0_0,
  .of main_v378, .of main_v379, .of main_v380, .of main_c_71, .of main_v381, .of main_v382, .of main_c_72, .of main_v383, .of main_v384, .of main_v385, .of main_v386, .of main_v387, .of main_v388, .of main_v389, .of main_v390, .of main_v391, .of main_v392, .of main_c_73, .of main_v393, .of main_v394, .of main_c_74, .of main_v395, .of main_v396, .of main_v397, .of main_v398, .of main_v399⟩
abbrev trip19 : Trip := ⟨![19, 0], slices_S27x131072_S1x131072_19_0, ![19, 0, 0], slices_S27x64x64_S1x64x64_19_0_0,
  .of main_v399, .of main_v400, .of main_v401, .of main_c_75, .of main_v402, .of main_v403, .of main_c_76, .of main_v404, .of main_v405, .of main_v406, .of main_v407, .of main_v408, .of main_v409, .of main_v410, .of main_v411, .of main_v412, .of main_v413, .of main_c_77, .of main_v414, .of main_v415, .of main_c_78, .of main_v416, .of main_v417, .of main_v418, .of main_v419, .of main_v420⟩
abbrev trip20 : Trip := ⟨![20, 0], slices_S27x131072_S1x131072_20_0, ![20, 0, 0], slices_S27x64x64_S1x64x64_20_0_0,
  .of main_v420, .of main_v421, .of main_v422, .of main_c_79, .of main_v423, .of main_v424, .of main_c_80, .of main_v425, .of main_v426, .of main_v427, .of main_v428, .of main_v429, .of main_v430, .of main_v431, .of main_v432, .of main_v433, .of main_v434, .of main_c_81, .of main_v435, .of main_v436, .of main_c_82, .of main_v437, .of main_v438, .of main_v439, .of main_v440, .of main_v441⟩
abbrev trip21 : Trip := ⟨![21, 0], slices_S27x131072_S1x131072_21_0, ![21, 0, 0], slices_S27x64x64_S1x64x64_21_0_0,
  .of main_v441, .of main_v442, .of main_v443, .of main_c_83, .of main_v444, .of main_v445, .of main_c_84, .of main_v446, .of main_v447, .of main_v448, .of main_v449, .of main_v450, .of main_v451, .of main_v452, .of main_v453, .of main_v454, .of main_v455, .of main_c_85, .of main_v456, .of main_v457, .of main_c_86, .of main_v458, .of main_v459, .of main_v460, .of main_v461, .of main_v462⟩
abbrev trip22 : Trip := ⟨![22, 0], slices_S27x131072_S1x131072_22_0, ![22, 0, 0], slices_S27x64x64_S1x64x64_22_0_0,
  .of main_v462, .of main_v463, .of main_v464, .of main_c_87, .of main_v465, .of main_v466, .of main_c_88, .of main_v467, .of main_v468, .of main_v469, .of main_v470, .of main_v471, .of main_v472, .of main_v473, .of main_v474, .of main_v475, .of main_v476, .of main_c_89, .of main_v477, .of main_v478, .of main_c_90, .of main_v479, .of main_v480, .of main_v481, .of main_v482, .of main_v483⟩
abbrev trip23 : Trip := ⟨![23, 0], slices_S27x131072_S1x131072_23_0, ![23, 0, 0], slices_S27x64x64_S1x64x64_23_0_0,
  .of main_v483, .of main_v484, .of main_v485, .of main_c_91, .of main_v486, .of main_v487, .of main_c_92, .of main_v488, .of main_v489, .of main_v490, .of main_v491, .of main_v492, .of main_v493, .of main_v494, .of main_v495, .of main_v496, .of main_v497, .of main_c_93, .of main_v498, .of main_v499, .of main_c_94, .of main_v500, .of main_v501, .of main_v502, .of main_v503, .of main_v504⟩
abbrev trip24 : Trip := ⟨![24, 0], slices_S27x131072_S1x131072_24_0, ![24, 0, 0], slices_S27x64x64_S1x64x64_24_0_0,
  .of main_v504, .of main_v505, .of main_v506, .of main_c_95, .of main_v507, .of main_v508, .of main_c_96, .of main_v509, .of main_v510, .of main_v511, .of main_v512, .of main_v513, .of main_v514, .of main_v515, .of main_v516, .of main_v517, .of main_v518, .of main_c_97, .of main_v519, .of main_v520, .of main_c_98, .of main_v521, .of main_v522, .of main_v523, .of main_v524, .of main_v525⟩
abbrev trip25 : Trip := ⟨![25, 0], slices_S27x131072_S1x131072_25_0, ![25, 0, 0], slices_S27x64x64_S1x64x64_25_0_0,
  .of main_v525, .of main_v526, .of main_v527, .of main_c_99, .of main_v528, .of main_v529, .of main_c_100, .of main_v530, .of main_v531, .of main_v532, .of main_v533, .of main_v534, .of main_v535, .of main_v536, .of main_v537, .of main_v538, .of main_v539, .of main_c_101, .of main_v540, .of main_v541, .of main_c_102, .of main_v542, .of main_v543, .of main_v544, .of main_v545, .of main_v546⟩
abbrev trip26 : Trip := ⟨![26, 0], slices_S27x131072_S1x131072_26_0, ![26, 0, 0], slices_S27x64x64_S1x64x64_26_0_0,
  .of main_v546, .of main_v547, .of main_v548, .of main_c_103, .of main_v549, .of main_v550, .of main_c_104, .of main_v551, .of main_v552, .of main_v553, .of main_v554, .of main_v555, .of main_v556, .of main_v557, .of main_v558, .of main_v559, .of main_v560, .of main_c_105, .of main_v561, .of main_v562, .of main_c_106, .of main_v563, .of main_v564, .of main_v565, .of main_v566, .of main_v567⟩

end Cert.ReferenceIdeal.Hand

end
-- ==== Proof.R.MainEq.lean ====
import proofs.«428655_j7868380086734_3_alg».proof.Proof.R.TripTable

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) :=
  opsHead ++ (trip0.ops ++ (trip1.ops ++ (trip2.ops ++ (trip3.ops ++ (trip4.ops ++ (trip5.ops ++ (trip6.ops ++ (trip7.ops ++ (trip8.ops ++ (trip9.ops ++ (trip10.ops ++ (trip11.ops ++ (trip12.ops ++ (trip13.ops ++ (trip14.ops ++ (trip15.ops ++ (trip16.ops ++ (trip17.ops ++ (trip18.ops ++ (trip19.ops ++ (trip20.ops ++ (trip21.ops ++ (trip22.ops ++ (trip23.ops ++ (trip24.ops ++ (trip25.ops ++ (trip26.ops ++ (opsTail))))))))))))))))))))))))))))

theorem part0_eq (c : Dev nD) : main_part0 (F := F) c = seq ((ops.drop 0).take 60) := rfl
theorem part1_eq (c : Dev nD) : main_part1 (F := F) c = seq ((ops.drop 60).take 60) := rfl
theorem part2_eq (c : Dev nD) : main_part2 (F := F) c = seq ((ops.drop 120).take 60) := rfl
theorem part3_eq (c : Dev nD) : main_part3 (F := F) c = seq ((ops.drop 180).take 60) := rfl
theorem part4_eq (c : Dev nD) : main_part4 (F := F) c = seq ((ops.drop 240).take 60) := rfl
theorem part5_eq (c : Dev nD) : main_part5 (F := F) c = seq ((ops.drop 300).take 60) := rfl
theorem part6_eq (c : Dev nD) : main_part6 (F := F) c = seq ((ops.drop 360).take 60) := rfl
theorem part7_eq (c : Dev nD) : main_part7 (F := F) c = seq ((ops.drop 420).take 60) := rfl
theorem part8_eq (c : Dev nD) : main_part8 (F := F) c = seq ((ops.drop 480).take 60) := rfl
theorem part9_eq (c : Dev nD) : main_part9 (F := F) c = seq ((ops.drop 540).take 60) := rfl
theorem part10_eq (c : Dev nD) : main_part10 (F := F) c = seq ((ops.drop 600).take 60) := rfl
theorem part11_eq (c : Dev nD) : main_part11 (F := F) c = seq (ops.drop 660) := rfl

-- @main runs its windows in order, and the windows are the line cut every 60 operations.
theorem main_eq (c : Dev nD) : main (F := F) c = seq ops := by
  rw [← List.drop_zero (l := (ops : List (HloOp τ sig (Elt F)))), seq_drop ops 0 60 rfl, seq_drop ops 60 120 rfl, seq_drop ops 120 180 rfl, seq_drop ops 180 240 rfl, seq_drop ops 240 300 rfl, seq_drop ops 300 360 rfl, seq_drop ops 360 420 rfl, seq_drop ops 420 480 rfl, seq_drop ops 480 540 rfl, seq_drop ops 540 600 rfl, seq_drop ops 600 660 rfl,
    ← part0_eq c, ← part1_eq c, ← part2_eq c, ← part3_eq c, ← part4_eq c, ← part5_eq c, ← part6_eq c, ← part7_eq c, ← part8_eq c, ← part9_eq c, ← part10_eq c, ← part11_eq c]
  rfl

end Cert.ReferenceIdeal.Hand

end
-- ==== Proof.R.Head.lean ====
import proofs.«428655_j7868380086734_3_alg».proof.Proof.R.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem head_step (V0 : Valuation τ sig (Elt F)) :
    ArgsKept (after opsHead V0) V0
      ∧ after opsHead V0 (main_v0 : DevRef τ sig)
        = (broadcastInDim S524288x64 ![] bcast_S_S524288x64 (constant S_ .f32 0x00000000#32) : FVec F S524288x64 .f32) := by
  refine ⟨⟨?_, ?_, ?_, ?_, ?_, ?_⟩, ?_⟩ <;> after_results

end Cert.ReferenceIdeal.Hand

end
-- ==== Proof.R.Vals.lean ====
import proofs.«428655_j7868380086734_3_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

def tripVal (st4 : Fin 2 → ℕ) (h4 : S27x131072.Slices st4 S1x131072)
    (stW : Fin 3 → ℕ) (hW : S27x64x64.Slices stW S1x64x64)
    (acc : FVec F S524288x64 .f32) (x : FVec F S524288x64 .f32) (W : FVec F S27x64x64 .f32)
    (ii oi : IVec S27x131072 32) : FVec F S524288x64 .f32 :=
  Host.scatterAdd scatter_S524288x64_S131072x1_S131072x64_1_0_0_1 acc
    (broadcastInDim S131072x1 ![0] bcast_S131072_S131072x1_0
      (select
        (cmpi .slt (shapeCast S131072 (extractStridedSlice S1x131072 st4 oi h4) shapeCasts_S1x131072_S131072)
          (broadcastInDim S131072 ![] bcast_S_S131072 (constantI S_ 32 0#32)))
        (addi (shapeCast S131072 (extractStridedSlice S1x131072 st4 oi h4) shapeCasts_S1x131072_S131072)
          (broadcastInDim S131072 ![] bcast_S_S131072 (constantI S_ 32 524288#32)))
        (shapeCast S131072 (extractStridedSlice S1x131072 st4 oi h4) shapeCasts_S1x131072_S131072)))
    (Host.dotGeneral dot_S131072x64_S64x64_S131072x64_1_0_0_1_n_n none
      (Host.gather gather_S524288x64_S131072x1_S131072x64_1_0_n_n_0_1_164 x
        (broadcastInDim S131072x1 ![0] bcast_S131072_S131072x1_0
          (select
            (cmpi .slt (shapeCast S131072 (extractStridedSlice S1x131072 st4 ii h4) shapeCasts_S1x131072_S131072)
              (broadcastInDim S131072 ![] bcast_S_S131072 (constantI S_ 32 0#32)))
            (addi (shapeCast S131072 (extractStridedSlice S1x131072 st4 ii h4) shapeCasts_S1x131072_S131072)
              (broadcastInDim S131072 ![] bcast_S_S131072 (constantI S_ 32 524288#32)))
            (shapeCast S131072 (extractStridedSlice S1x131072 st4 ii h4) shapeCasts_S1x131072_S131072))))
      (shapeCast S64x64 (extractStridedSlice S1x64x64 stW W hW) shapeCasts_S1x64x64_S64x64))

def tailVal (acc : FVec F S524288x64 .f32) (g b : FVec F S64 .f32) : FVec F S524288x64 .f32 :=
  maximumf
    (addf
      (mulf
        (mulf
          (subf acc
            (broadcastInDim S524288x64 ![0, 1] bcast_S1x64_S524288x64_0_1
              (broadcastInDim S1x64 ![1] bcast_S64_S1x64_1
                (Host.divf
                  (Host.reduceAdd acc (constant S_ .f32 0x00000000#32) reducesTo_S524288x64_S64_d0 h_S_)
                  (broadcastInDim S64 ![] bcast_S_S64 (constant S_ .f32 0x49000000#32))))))
          (broadcastInDim S524288x64 ![0, 1] bcast_S1x64_S524288x64_0_1
            (broadcastInDim S1x64 ![1] bcast_S64_S1x64_1
              (Host.rsqrt
                (addf
                  (select
                    (broadcastInDim S64 ![] bcast_S_S64
                      (cmpf .ogt
                        (subf (constant (F := F) S_ .f32 0x49000000#32) (sitofp .f32 (constantI S_ 32 0#32)))
                        (constant S_ .f32 0x00000000#32)))
                    (Host.divf
                      (Host.reduceAdd
                        (mulf
                          (subf acc
                            (broadcastInDim S524288x64 ![0, 1] bcast_S1x64_S524288x64_0_1
                              (Host.divf
                                (broadcastInDim S1x64 ![1] bcast_S64_S1x64_1
                                  (Host.reduceAdd acc (constant S_ .f32 0x00000000#32) reducesTo_S524288x64_S64_d0 h_S_))
                                (broadcastInDim S1x64 ![] bcast_S_S1x64 (constant S_ .f32 0x49000000#32)))))
                          (subf acc
                            (broadcastInDim S524288x64 ![0, 1] bcast_S1x64_S524288x64_0_1
                              (Host.divf
                                (broadcastInDim S1x64 ![1] bcast_S64_S1x64_1
                                  (Host.reduceAdd acc (constant S_ .f32 0x00000000#32) reducesTo_S524288x64_S64_d0 h_S_))
                                (broadcastInDim S1x64 ![] bcast_S_S1x64 (constant S_ .f32 0x49000000#32))))))
                        (constant S_ .f32 0x00000000#32) reducesTo_S524288x64_S64_d0 h_S_)
                      (broadcastInDim S64 ![] bcast_S_S64
                        (subf (constant S_ .f32 0x49000000#32) (sitofp .f32 (constantI S_ 32 0#32)))))
                    (broadcastInDim S64 ![] bcast_S_S64 (id (constant S_ .f32 0x7FC00000#32))))
                  (broadcastInDim S64 ![] bcast_S_S64 (constant S_ .f32 0x3727C5AC#32)))))))
        (broadcastInDim S524288x64 ![0, 1] bcast_S1x64_S524288x64_0_1
          (broadcastInDim S1x64 ![1] bcast_S64_S1x64_1 g)))
      (broadcastInDim S524288x64 ![0, 1] bcast_S1x64_S524288x64_0_1
        (broadcastInDim S1x64 ![1] bcast_S64_S1x64_1 b)))
    (broadcastInDim S524288x64 ![] bcast_S_S524288x64 (constant S_ .f32 0x00000000#32))

theorem sl4 : ∀ k : Fin 27, S27x131072.Slices ![k.val, 0] S1x131072 := by decide
theorem slW : ∀ k : Fin 27, S27x64x64.Slices ![k.val, 0, 0] S1x64x64 := by decide

-- The accumulator after the first `n` trips, from zero.
def accVal (x : FVec F S524288x64 .f32) (W : FVec F S27x64x64 .f32) (ii oi : IVec S27x131072 32) :
    (n : ℕ) → n ≤ 27 → FVec F S524288x64 .f32
  | 0, _ => broadcastInDim S524288x64 ![] bcast_S_S524288x64 (constant S_ .f32 0x00000000#32)
  | n + 1, h => tripVal ![n, 0] (sl4 ⟨n, h⟩) ![n, 0, 0] (slW ⟨n, h⟩) (accVal x W ii oi n (Nat.le_of_succ_le h)) x W ii oi

def refVal (x : FVec F S524288x64 .f32) (W : FVec F S27x64x64 .f32) (g b : FVec F S64 .f32)
    (ii oi : IVec S27x131072 32) : FVec F S524288x64 .f32 :=
  tailVal (accVal x W ii oi 27 le_rfl) g b

end Cert.ReferenceIdeal.Hand

end
-- ==== Proof.R.Trips.lean ====
import proofs.«428655_j7868380086734_3_alg».proof.Proof.R.Vals
import proofs.«428655_j7868380086734_3_alg».proof.Proof.R.TripTable

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The invariant a trip carries: the arguments as launched and the accumulator `a` before it, the arguments as
-- launched and the trip's value of `a` after it.
def Trip.Step (F : FTy → Type) [FloatOps F] (t : Trip) : Prop :=
  ∀ {V V0 : Valuation τ sig (Elt F)} {a : FVec F S524288x64 .f32}, ArgsKept V V0 → t.acc.ofBuf (V t.acc.ref) = a →
    ArgsKept (after t.ops V) V0
      ∧ t.out.ofBuf (after t.ops V t.out.ref)
        = tripVal t.st4 t.h4 t.stW t.hW a (V0 (main_arg0 : DevRef τ sig)) (V0 (main_arg1 : DevRef τ sig))
            (V0 (main_arg4 : DevRef τ sig)) (V0 (main_arg5 : DevRef τ sig))

theorem Trip.step (t : Trip) (hr : ∀ r ∈ argRefs, r ∉ t.written)
    (hv : ∀ V : Valuation τ sig (Elt F), t.out.ofBuf (after t.ops V t.out.ref)
      = tripVal t.st4 t.h4 t.stW t.hW (t.acc.ofBuf (V t.acc.ref)) (V (main_arg0 : DevRef τ sig)) (V (main_arg1 : DevRef τ sig))
          (V (main_arg4 : DevRef τ sig)) (V (main_arg5 : DevRef τ sig))) : t.Step F :=
  fun h ha => ⟨h.after t.writes hr, by rw [hv, ha, h.a0, h.a1, h.a4, h.a5]⟩

theorem trip0_step : trip0.Step F := trip0.step (by decide) fun V => by after_results_simp; rfl
theorem trip1_step : trip1.Step F := trip1.step (by decide) fun V => by after_results_simp; rfl
theorem trip2_step : trip2.Step F := trip2.step (by decide) fun V => by after_results_simp; rfl
theorem trip3_step : trip3.Step F := trip3.step (by decide) fun V => by after_results_simp; rfl
theorem trip4_step : trip4.Step F := trip4.step (by decide) fun V => by after_results_simp; rfl
theorem trip5_step : trip5.Step F := trip5.step (by decide) fun V => by after_results_simp; rfl
theorem trip6_step : trip6.Step F := trip6.step (by decide) fun V => by after_results_simp; rfl
theorem trip7_step : trip7.Step F := trip7.step (by decide) fun V => by after_results_simp; rfl
theorem trip8_step : trip8.Step F := trip8.step (by decide) fun V => by after_results_simp; rfl
theorem trip9_step : trip9.Step F := trip9.step (by decide) fun V => by after_results_simp; rfl
theorem trip10_step : trip10.Step F := trip10.step (by decide) fun V => by after_results_simp; rfl
theorem trip11_step : trip11.Step F := trip11.step (by decide) fun V => by after_results_simp; rfl
theorem trip12_step : trip12.Step F := trip12.step (by decide) fun V => by after_results_simp; rfl
theorem trip13_step : trip13.Step F := trip13.step (by decide) fun V => by after_results_simp; rfl
theorem trip14_step : trip14.Step F := trip14.step (by decide) fun V => by after_results_simp; rfl
theorem trip15_step : trip15.Step F := trip15.step (by decide) fun V => by after_results_simp; rfl
theorem trip16_step : trip16.Step F := trip16.step (by decide) fun V => by after_results_simp; rfl
theorem trip17_step : trip17.Step F := trip17.step (by decide) fun V => by after_results_simp; rfl
theorem trip18_step : trip18.Step F := trip18.step (by decide) fun V => by after_results_simp; rfl
theorem trip19_step : trip19.Step F := trip19.step (by decide) fun V => by after_results_simp; rfl
theorem trip20_step : trip20.Step F := trip20.step (by decide) fun V => by after_results_simp; rfl
theorem trip21_step : trip21.Step F := trip21.step (by decide) fun V => by after_results_simp; rfl
theorem trip22_step : trip22.Step F := trip22.step (by decide) fun V => by after_results_simp; rfl
theorem trip23_step : trip23.Step F := trip23.step (by decide) fun V => by after_results_simp; rfl
theorem trip24_step : trip24.Step F := trip24.step (by decide) fun V => by after_results_simp; rfl
theorem trip25_step : trip25.Step F := trip25.step (by decide) fun V => by after_results_simp; rfl
theorem trip26_step : trip26.Step F := trip26.step (by decide) fun V => by after_results_simp; rfl

end Cert.ReferenceIdeal.Hand

end
-- ==== Proof.R.Tail.lean ====
import proofs.«428655_j7868380086734_3_alg».proof.Proof.R.Vals
import proofs.«428655_j7868380086734_3_alg».proof.Proof.R.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev wTail : List (Ref sig .tc) :=
  [main_cst_107, main_v568, main_cst_108, main_v569, main_v570, main_c_109, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v571, main_v572, main_v573, main_v574, main_cst_110, main_v575, main_v576, main_v577, main_v578, main_v579, main_v580, main_v581, main_v582, main_v583, main_v584, main_v585, main_v586, main_cst_111, main_v587, main_v588]

theorem tail_writes : (opsTail : List (HloOp τ sig (Elt F))).Forall fun op =>
    op.writes ⊆ (wTail.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem tail_step {V V0 : Valuation τ sig (Elt F)} {a : FVec F S524288x64 .f32}
    (h : ArgsKept V V0) (ha : V (main_v567 : DevRef τ sig) = a) :
    ArgsKept (after opsTail V) V0
      ∧ after opsTail V (main_v588 : DevRef τ sig)
        = tailVal a (V0 (main_arg2 : DevRef τ sig)) (V0 (main_arg3 : DevRef τ sig)) := by
  refine ⟨h.after tail_writes (by decide), ?_⟩
  rw [← ha, ← h.a2, ← h.a3]
  after_results_simp
  rfl

end Cert.ReferenceIdeal.Hand

end
-- ==== Proof.R.Run.lean ====
import proofs.«428655_j7868380086734_3_alg».proof.Proof.R.MainEq
import proofs.«428655_j7868380086734_3_alg».proof.Proof.R.Head
import proofs.«428655_j7868380086734_3_alg».proof.Proof.R.Trips
import proofs.«428655_j7868380086734_3_alg».proof.Proof.R.Tail

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append head_sub (forall_append trip0.sub (forall_append trip1.sub (forall_append trip2.sub (forall_append trip3.sub (forall_append trip4.sub (forall_append trip5.sub (forall_append trip6.sub (forall_append trip7.sub (forall_append trip8.sub (forall_append trip9.sub (forall_append trip10.sub (forall_append trip11.sub (forall_append trip12.sub (forall_append trip13.sub (forall_append trip14.sub (forall_append trip15.sub (forall_append trip16.sub (forall_append trip17.sub (forall_append trip18.sub (forall_append trip19.sub (forall_append trip20.sub (forall_append trip21.sub (forall_append trip22.sub (forall_append trip23.sub (forall_append trip24.sub (forall_append trip25.sub (forall_append trip26.sub (tail_sub))))))))))))))))))))))))))))

theorem ops_fresh : (ops : List (HloOp τ sig (Elt F))).Forall fun op => op.fresh = ∅ :=
  forall_append head_fresh (forall_append trip0.fresh (forall_append trip1.fresh (forall_append trip2.fresh (forall_append trip3.fresh (forall_append trip4.fresh (forall_append trip5.fresh (forall_append trip6.fresh (forall_append trip7.fresh (forall_append trip8.fresh (forall_append trip9.fresh (forall_append trip10.fresh (forall_append trip11.fresh (forall_append trip12.fresh (forall_append trip13.fresh (forall_append trip14.fresh (forall_append trip15.fresh (forall_append trip16.fresh (forall_append trip17.fresh (forall_append trip18.fresh (forall_append trip19.fresh (forall_append trip20.fresh (forall_append trip21.fresh (forall_append trip22.fresh (forall_append trip23.fresh (forall_append trip24.fresh (forall_append trip25.fresh (forall_append trip26.fresh (tail_fresh))))))))))))))))))))))))))))

-- Each piece reads the previous piece's accumulator and the launch's arguments.
theorem ops_fold (V0 : Valuation τ sig (Elt F)) :
    ArgsKept (after ops V0) V0
      ∧ after ops V0 (main_v588 : DevRef τ sig)
        = refVal (V0 (main_arg0 : DevRef τ sig)) (V0 (main_arg1 : DevRef τ sig)) (V0 (main_arg2 : DevRef τ sig))
            (V0 (main_arg3 : DevRef τ sig)) (V0 (main_arg4 : DevRef τ sig)) (V0 (main_arg5 : DevRef τ sig)) := by
  have h := head_step V0
  have h0 := trip0_step h.1 h.2
  have h1 := trip1_step h0.1 h0.2
  have h2 := trip2_step h1.1 h1.2
  have h3 := trip3_step h2.1 h2.2
  have h4 := trip4_step h3.1 h3.2
  have h5 := trip5_step h4.1 h4.2
  have h6 := trip6_step h5.1 h5.2
  have h7 := trip7_step h6.1 h6.2
  have h8 := trip8_step h7.1 h7.2
  have h9 := trip9_step h8.1 h8.2
  have h10 := trip10_step h9.1 h9.2
  have h11 := trip11_step h10.1 h10.2
  have h12 := trip12_step h11.1 h11.2
  have h13 := trip13_step h12.1 h12.2
  have h14 := trip14_step h13.1 h13.2
  have h15 := trip15_step h14.1 h14.2
  have h16 := trip16_step h15.1 h15.2
  have h17 := trip17_step h16.1 h16.2
  have h18 := trip18_step h17.1 h17.2
  have h19 := trip19_step h18.1 h18.2
  have h20 := trip20_step h19.1 h19.2
  have h21 := trip21_step h20.1 h20.2
  have h22 := trip22_step h21.1 h21.2
  have h23 := trip23_step h22.1 h22.2
  have h24 := trip24_step h23.1 h23.2
  have h25 := trip25_step h24.1 h24.2
  have h26 := trip26_step h25.1 h25.2
  have ht := tail_step h26.1 h26.2
  simp only [ops, after_append]
  exact ht

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v588)
        = refVal (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have hf := ops_fold (launchContents m c)
      ⟨(h c main_v588).trans hf.2, (h c main_arg0).trans hf.1.a0, (h c main_arg1).trans hf.1.a1,
        (h c main_arg2).trans hf.1.a2, (h c main_arg3).trans hf.1.a3, (h c main_arg4).trans hf.1.a4,
        (h c main_arg5).trans hf.1.a5⟩)
    (run_seq scopedRefs_eq scopedSems_eq defs main (fun _ => ops) main_eq (fun _ => ops_sub) m ρ
      (fun _ => List.forall_iff_forall_mem.mp ops_fresh))

end Cert.ReferenceIdeal.Hand

end
-- ==== Proof.LibOneAxisContraction.lean ====
import Idealize.ShloMosaic.Lib.ValueIdx
import Idealize.ShloMosaic.PureOps.Ideal.Laws

noncomputable section

namespace Cert.Dots

open Idealize.ShloMosaic Idealize.ShloMosaic.ValueIdx
open scoped BigOperators

theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KI.Arr0.lean ====
import proofs.«428655_j7868380086734_3_alg».proof.Proof.KI.Reg0
import proofs.«428655_j7868380086734_3_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev lhs0 (c : Dev nD) : S27x65536x128.Idx → EReal := V c main_v13
abbrev rhs0 (c : Dev nD) : S27x128x128.Idx → EReal := V c main_v5
abbrev res0 (c : Dev nD) : S27x65536x128.Idx → EReal := (dat0 V c).arrAt 2 cfg0.N

def slabProduct (a : S27x65536x128.Idx → EReal) (b : S27x128x128.Idx → EReal) : S27x65536x128.Idx → EReal :=
  fun i => ∑ d : Fin 128, a (ix3 (i 0) (i 1) d) * b (ix3 (i 0) d (i 2))

theorem zeros3 : (![0, 0, 0] : Fin 3 → Nat) = fun _ => 0 := funext fun a => by fin_cases a <;> rfl

theorem lhsAt (r : Fin 8192) (l : Fin 128) (d : Fin 128) :
    dot_S8192x128_S128x128_S8192x128_1_0_0_1_n_n.lhsIdx (ix2 r l) ((contrEquiv1 dot_S8192x128_S128x128_S8192x128_1_0_0_1_n_n 128 rfl rfl).symm d) = ix2 r d := by
  have cd := contrEquiv1_symm_val dot_S8192x128_S128x128_S8192x128_1_0_0_1_n_n 128 rfl rfl d
  funext ax; apply Fin.ext
  match ax with
  | ⟨0, _⟩ => simp [DotDims.lhsIdx, dot_S8192x128_S128x128_S8192x128_1_0_0_1_n_n]; rfl
  | ⟨1, _⟩ => simp [DotDims.lhsIdx, dot_S8192x128_S128x128_S8192x128_1_0_0_1_n_n]; exact cd

theorem rhsAt (r : Fin 8192) (l : Fin 128) (d : Fin 128) :
    dot_S8192x128_S128x128_S8192x128_1_0_0_1_n_n.rhsIdx (ix2 r l) ((contrEquiv1 dot_S8192x128_S128x128_S8192x128_1_0_0_1_n_n 128 rfl rfl).symm d) = ix2 d l := by
  have cd := contrEquiv1_symm_val dot_S8192x128_S128x128_S8192x128_1_0_0_1_n_n 128 rfl rfl d
  funext ax; apply Fin.ext
  match ax with
  | ⟨0, _⟩ => simp [DotDims.rhsIdx, dot_S8192x128_S128x128_S8192x128_1_0_0_1_n_n]; exact cd
  | ⟨1, _⟩ => simp [DotDims.rhsIdx, dot_S8192x128_S128x128_S8192x128_1_0_0_1_n_n]; rfl

theorem productBlock_apply (x0 : S1x8192x128.Idx → EReal) (x1 : S1x128x128.Idx → EReal) (u : Fin 1) (r : Fin 8192) (l : Fin 128) :
    k0_pay1 (F := Ideal) x0 x1 (ix3 u r l) = ∑ d : Fin 128, x0 (ix3 0 r d) * x1 (ix3 0 d l) := by
  unfold k0_pay1
  rw [shapeCast_ab_1ab_apply, truncf_apply,
    Cert.Dots.matmul_zero_apply_of dot_S8192x128_S128x128_S8192x128_1_0_0_1_n_n 128 rfl rfl none _ _ (ix2 r l) (fun d => ix2 r d) (fun d => ix2 d l)
      (lhsAt r l) (rhsAt r l)]
  refine Finset.sum_congr rfl fun d _ => ?_
  rw [shapeCast_1ab_ab_apply, shapeCast_1ab_ab_apply]

theorem index_facts0 : ∀ t : Fin cfg0.N, win0_0.index t (0 : Fin 3) = win0_2.index t (0 : Fin 3)
    ∧ win0_0.index t (1 : Fin 3) = win0_2.index t (1 : Fin 3) ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 26 ∧ win0_2.index t (1 : Fin 3) ≤ 7 :=
  (by decide +kernel : ∀ t : Fin grid0.N, _)

theorem index_onto0 : ∀ (q0 : Fin 27) (q1 : Fin 8), ∃ t : Fin cfg0.N, win0_2.index t = ![q0.val, q1.val, 0] :=
  (by decide +kernel : ∀ (q0 : Fin 27) (q1 : Fin 8), ∃ t : Fin grid0.N, win0_2.index t = ![q0.val, q1.val, 0])

theorem flushed0_2_eq (c : Dev nD) (t : Fin cfg0.N) :
    (dat0 V c).flushed 2 t = ((cfg0.win 2).blk t).view.read (Elt Ideal) (slabProduct (V c main_v13) (V c main_v5)) := by
  show (cfg0.win 2).cut (grid0.coords t) ((dat0 V c).after 2 t) = _
  rw [after0_2]
  unfold out0_2
  rw [View.canon_unit_zero zeros3]
  simp only [View.ld_unit_zero (S := S1x8192x128) zeros3, View.ld_unit_zero (S := S1x128x128) zeros3]
  obtain ⟨e0, e1, e2, e3, e4, e5, e6, e7, e8⟩ := index_facts0 t
  funext j
  obtain ⟨u, r, l, rfl⟩ : ∃ (u : Fin 1) (r : Fin 8192) (l : Fin 128), j = ix3 u r l := ⟨j 0, j 1, j 2, eq_ix3 j⟩
  have hu : u.val = 0 := by omega
  show k0_pay1 (F := Ideal) (iblk0 V c 0 t) (iblk0 V c 1 t) (ix3 u r l)
    = slabProduct (V c main_v13) (V c main_v5) (((cfg0.win 2).blk t).view.emb (ix3 u r l))
  rw [productBlock_apply]
  unfold slabProduct
  refine Finset.sum_congr rfl fun d _ => ?_
  have hl : (iblk0 V c 0 t : S1x8192x128.Idx → EReal) (ix3 0 r d)
      = (V c main_v13 : S27x65536x128.Idx → EReal) (ix3 ((((cfg0.win 2).blk t).view.emb (ix3 u r l) : S27x65536x128.Idx) 0)
          ((((cfg0.win 2).blk t).view.emb (ix3 u r l) : S27x65536x128.Idx) 1) d) := by
    show (V c main_v13 : S27x65536x128.Idx → EReal) (((cfg0.win 0).blk t).view.emb (ix3 0 r d)) = _
    refine congrArg _ (funext fun a => Fin.ext ?_)
    match a with
    | ⟨0, _⟩ => show win0_0.index t (0 : Fin 3) * 1 + 1 * (0 : Fin 1).val = win0_2.index t (0 : Fin 3) * 1 + 1 * u.val; simp [e0, hu]
    | ⟨1, _⟩ => show win0_0.index t (1 : Fin 3) * 8192 + 1 * r.val = win0_2.index t (1 : Fin 3) * 8192 + 1 * r.val; omega
    | ⟨2, _⟩ => show win0_0.index t (2 : Fin 3) * 128 + 1 * d.val = d.val; omega
  have hr : (iblk0 V c 1 t : S1x128x128.Idx → EReal) (ix3 0 d l)
      = (V c main_v5 : S27x128x128.Idx → EReal) (ix3 ((((cfg0.win 2).blk t).view.emb (ix3 u r l) : S27x65536x128.Idx) 0) d
          ((((cfg0.win 2).blk t).view.emb (ix3 u r l) : S27x65536x128.Idx) 2)) := by
    show (V c main_v5 : S27x128x128.Idx → EReal) (((cfg0.win 1).blk t).view.emb (ix3 0 d l)) = _
    refine congrArg _ (funext fun a => Fin.ext ?_)
    match a with
    | ⟨0, _⟩ => show win0_1.index t (0 : Fin 3) * 1 + 1 * (0 : Fin 1).val = win0_2.index t (0 : Fin 3) * 1 + 1 * u.val; simp [e3, hu]
    | ⟨1, _⟩ => show win0_1.index t (1 : Fin 3) * 128 + 1 * d.val = d.val; omega
    | ⟨2, _⟩ => show win0_1.index t (2 : Fin 3) * 128 + 1 * l.val = win0_2.index t (2 : Fin 3) * 128 + 1 * l.val; omega
  rw [hl, hr]

theorem mem_block0_2 (t : Fin cfg0.N) (i : S27x65536x128.Idx) :
    i ∈ ((cfg0.win 2).blk t).view.set ↔ ∀ a : Fin 3, win0_2.index t a * S1x8192x128.size a ≤ (i a).val ∧ (i a).val < win0_2.index t a * S1x8192x128.size a + S1x8192x128.size a := by
  show i ∈ ((View.whole main_v14).slice (win0_2.rect t)).set ↔ _
  rw [View.set_slice_whole, Rect.mem_set_unit]
  exact Iff.rfl

theorem blocks_cover0_2 (i : S27x65536x128.Idx) :
    ∃ t : Fin cfg0.N, (cfg0.win 2).flush t = true ∧ i ∈ ((cfg0.win 2).blk t).view.set := by
  have hi0 : (i 0).val < 27 := (i 0).isLt
  have hi1 : (i 1).val < 65536 := (i 1).isLt
  have hi2 : (i 2).val < 128 := (i 2).isLt
  obtain ⟨t, ht⟩ := index_onto0 ⟨(i 0).val, hi0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [mem_block0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 128 ≤ (i 2).val ∧ (i 2).val < win0_2.index t (2 : Fin 3) * 128 + 128; omega

theorem arrAt0_2_eq (c : Dev nD) : (dat0 V c).arrAt 2 cfg0.N = slabProduct (V c main_v13) (V c main_v5) :=
  (dat0 V c).arrAt_eq_of_cover 2 _ (fun t _ => flushed0_2_eq V c t) blocks_cover0_2

theorem arrAt0_2_apply (c : Dev nD) (k : Fin 27) (r : Fin 65536) (l : Fin 128) :
    res0 V c (ix3 k r l) = ∑ d : Fin 128, lhs0 V c (ix3 k r d) * rhs0 V c (ix3 k d l) := by
  show (dat0 V c).arrAt 2 cfg0.N (ix3 k r l) = _
  rw [arrAt0_2_eq]; rfl

end Cert.KernelIdeal.Hand

end
-- ==== Proof.Spec.lean ====
import Idealize.ShloMosaic.Lib.ValueIdx
import Idealize.ShloMosaic.PureOps.Ideal
import Mathlib.Algebra.BigOperators.Group.Finset.Basic

noncomputable section

namespace Cert.Spec

open Idealize.ShloMosaic Idealize.ShloMosaic.ValueIdx
open scoped BigOperators

abbrev SX : Shape := ⟨2, ![524288, 64]⟩
abbrev SWt : Shape := ⟨3, ![27, 64, 64]⟩
abbrev SC : Shape := ⟨1, ![64]⟩
abbrev SI : Shape := ⟨2, ![27, 131072]⟩

def wrap (v : BitVec 32) : BitVec 32 :=
  Scalar.select (IntOp.cmpi .slt v 0#32) (IntOp.addi v 524288#32) v

def srcRow (v : BitVec 32) : Fin 524288 := ⟨min (wrap v).toInt.toNat (524288 - 1), by omega⟩

def contrib (x : SX.Idx → EReal) (W : SWt.Idx → EReal) (ii : SI.Idx → BitVec 32)
    (k : Fin 27) (j : Fin 131072) (c : Fin 64) : EReal :=
  ∑ d : Fin 64, x (ix2 (srcRow (ii (ix2 k j))) d) * W (ix3 k d c)

def scat (dst : Fin 27 → Fin 131072 → BitVec 32) (x : SX.Idx → EReal) (W : SWt.Idx → EReal)
    (ii : SI.Idx → BitVec 32) (n : Fin 524288) (c : Fin 64) : EReal :=
  ∑ k : Fin 27, ∑ j : Fin 131072, if (dst k j).toInt = (n.val : ℤ) then contrib x W ii k j c else 0

def Nf : EReal := Ideal.ofBits .f32 0x49000000#32
def eps : EReal := Ideal.ofBits .f32 0x3727C5AC#32

def mean (a : Fin 524288 → Fin 64 → EReal) (c : Fin 64) : EReal := Ideal.div (∑ n : Fin 524288, a n c) Nf
def varDev (a : Fin 524288 → Fin 64 → EReal) (c : Fin 64) : EReal :=
  Ideal.div (∑ n : Fin 524288, (a n c - mean a c) * (a n c - mean a c)) Nf
def varSq (a : Fin 524288 → Fin 64 → EReal) (c : Fin 64) : EReal :=
  max (Ideal.div (∑ n : Fin 524288, a n c * a n c) Nf - mean a c * mean a c) 0

def bn (v : Fin 64 → EReal) (a : Fin 524288 → Fin 64 → EReal) (g b : Fin 64 → EReal)
    (n : Fin 524288) (c : Fin 64) : EReal :=
  max ((a n c - mean a c) * Ideal.rsqrt (v c + eps) * g c + b c) 0

end Cert.Spec

end
-- ==== Proof.LibRowGather.lean ====
import Idealize.ShloMosaic.Lib.ValueIdx

noncomputable section

namespace Cert.LibRows

open Idealize.ShloMosaic Idealize.ShloMosaic.ValueIdx

variable {α : Type}

abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (rowGatherDims N M C wf) x idx (ix2 j c)
      = x (ix2 ⟨min (idx (ix2 j ⟨0, Nat.one_pos⟩)).toInt.toNat (N - 1), by omega⟩ c) := by
  unfold Host.gather
  congr 1
  funext a
  refine Fin.ext ?_
  match a with
  | ⟨0, _⟩ =>
    show (rowGatherDims N M C wf).start (ix2 j c) idx 0 + (rowGatherDims N M C wf).batchCoord (ix2 j c) 0
      + (rowGatherDims N M C wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 j c) ⟨List.idxOf (0 : Fin 2) (rowGatherDims N M C wf).startIndexMap,
        List.idxOf_lt_length_iff.2 (List.mem_singleton.mpr rfl)⟩ = ix2 j ⟨0, Nat.one_pos⟩ := by
      funext b; refine Fin.ext ?_
      match b with
      | ⟨0, _⟩ => rfl
      | ⟨1, _⟩ => rfl
    rw [hsi]
    rfl
  | ⟨1, _⟩ =>
    show (rowGatherDims N M C wf).start (ix2 j c) idx 1 + (rowGatherDims N M C wf).batchCoord (ix2 j c) 1
      + (rowGatherDims N M C wf).offCoord (ix2 j c) 1 = c.val
    have hs : (rowGatherDims N M C wf).start (ix2 j c) idx 1 = 0 := by
      unfold GatherDims.start
      rw [dif_neg (show (1 : Fin 2) ∉ (rowGatherDims N M C wf).startIndexMap from
        fun h => absurd (List.mem_singleton.mp h) (by decide : ¬ (1 : Fin 2) = 0))]
    have ho : (rowGatherDims N M C wf).offCoord (ix2 j c) 1 = c.val := by
      unfold GatherDims.offCoord
      rw [dif_pos ((GatherDims.mem_sKept _ _).mpr
        ⟨fun h => absurd (List.mem_singleton.mp h) (by decide : ¬ (1 : Fin 2) = 0), List.not_mem_nil⟩)]
      rfl
    rw [hs, GatherDims.batchCoord_eq_zero _ _ _ List.not_mem_nil, ho]
    omega

abbrev rowGatherDims3 (N K M C : Nat)
    (wf : GatherDims.WF ⟨2, ![N, C]⟩ ⟨3, ![K, M, 1]⟩ ⟨3, ![K, M, C]⟩ [2] [0] [] [0] [] 2 ![1, C]) :
    GatherDims ⟨2, ![N, C]⟩ ⟨3, ![K, M, 1]⟩ ⟨3, ![K, M, C]⟩ where
  offsetDims := [2]
  collapsedSliceDims := [0]
  operandBatchingDims := []
  startIndicesBatchingDims := []
  startIndexMap := [0]
  indexVectorDim := 2
  sliceSizes := ![1, C]
  wf := wf

theorem rowGather3_apply {N K M C w : Nat} (hN : 0 < N)
    (wf : GatherDims.WF ⟨2, ![N, C]⟩ ⟨3, ![K, M, 1]⟩ ⟨3, ![K, M, C]⟩ [2] [0] [] [0] [] 2 ![1, C])
    (x : (⟨2, ![N, C]⟩ : Shape).Idx → α) (idx : IVec ⟨3, ![K, M, 1]⟩ w) (k : Fin K) (j : Fin M) (c : Fin C) :
    Host.gather (rowGatherDims3 N K M C wf) x idx (ix3 k j c)
      = x (ix2 ⟨min (idx (ix3 k j ⟨0, Nat.one_pos⟩)).toInt.toNat (N - 1), by omega⟩ c) := by
  unfold Host.gather
  congr 1
  funext a
  refine Fin.ext ?_
  match a with
  | ⟨0, _⟩ =>
    show (rowGatherDims3 N K M C wf).start (ix3 k j c) idx 0 + (rowGatherDims3 N K M C wf).batchCoord (ix3 k j c) 0
      + (rowGatherDims3 N K M C wf).offCoord (ix3 k j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims3 N K M C wf).startIndexMap from List.mem_singleton.mpr rfl)]
    have hsi : (rowGatherDims3 N K M C wf).siIdx (ix3 k j c) ⟨List.idxOf (0 : Fin 2) (rowGatherDims3 N K M C wf).startIndexMap,
        List.idxOf_lt_length_iff.2 (List.mem_singleton.mpr rfl)⟩ = ix3 k j ⟨0, Nat.one_pos⟩ := by
      funext b; refine Fin.ext ?_
      match b with
      | ⟨0, _⟩ => rfl
      | ⟨1, _⟩ => rfl
      | ⟨2, _⟩ => rfl
    rw [hsi]
    rfl
  | ⟨1, _⟩ =>
    show (rowGatherDims3 N K M C wf).start (ix3 k j c) idx 1 + (rowGatherDims3 N K M C wf).batchCoord (ix3 k j c) 1
      + (rowGatherDims3 N K M C wf).offCoord (ix3 k j c) 1 = c.val
    have hs : (rowGatherDims3 N K M C wf).start (ix3 k j c) idx 1 = 0 := by
      unfold GatherDims.start
      rw [dif_neg (show (1 : Fin 2) ∉ (rowGatherDims3 N K M C wf).startIndexMap from
        fun h => absurd (List.mem_singleton.mp h) (by decide : ¬ (1 : Fin 2) = 0))]
    have ho : (rowGatherDims3 N K M C wf).offCoord (ix3 k j c) 1 = c.val := by
      unfold GatherDims.offCoord
      rw [dif_pos ((GatherDims.mem_sKept _ _).mpr
        ⟨fun h => absurd (List.mem_singleton.mp h) (by decide : ¬ (1 : Fin 2) = 0), List.not_mem_nil⟩)]
      rfl
    rw [hs, GatherDims.batchCoord_eq_zero _ _ _ List.not_mem_nil, ho]
    omega

end Cert.LibRows

end
-- ==== Proof.KI.ValHost0W.lean ====
import proofs.«428655_j7868380086734_3_alg».proof.Proof.Gen.KernelIdeal.Launch
import proofs.«428655_j7868380086734_3_alg».proof.Proof.Spec
import proofs.«428655_j7868380086734_3_alg».proof.Proof.LibRowGather
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
open scoped BigOperators

section Pieces
variable {α : Type}

theorem cat2_lo (x₁ x₂ : S27x64x64.Idx → α) (k : Fin 27) (d : Fin 64) (l : Fin 128) (hl : l.val < 64) :
    concatenate S27x64x128 2 [⟨S27x64x64, x₁⟩, ⟨S27x64x64, x₂⟩] concatenates_S27x64x64_S27x64x64_S27x64x128_d2 (ix3 k d l)
      = x₁ (ix3 k d ⟨l.val, hl⟩) := by
  refine concatenate_pair_apply_left (2 : Fin 3) x₁ x₂ _ (ix3 k d l) rfl (ix3 k d ⟨l.val, hl⟩) fun b => ?_
  match b with
  | ⟨0, _⟩ => rfl
  | ⟨1, _⟩ => rfl
  | ⟨2, _⟩ => rfl

theorem cat2_hi (x₁ x₂ : S27x64x64.Idx → α) (k : Fin 27) (d : Fin 64) (l : Fin 128) (hl : 64 ≤ l.val) :
    concatenate S27x64x128 2 [⟨S27x64x64, x₁⟩, ⟨S27x64x64, x₂⟩] concatenates_S27x64x64_S27x64x64_S27x64x128_d2 (ix3 k d l)
      = x₂ (ix3 k d ⟨l.val - 64, by have := l.isLt; omega⟩) := by
  refine concatenate_pair_apply_right (2 : Fin 3) x₁ x₂ _ (ix3 k d l) rfl rfl (ix3 k d ⟨l.val - 64, by have := l.isLt; omega⟩)
    (fun b hb => ?_) ?_
  · match b with
    | ⟨0, _⟩ => rfl
    | ⟨1, _⟩ => rfl
    | ⟨2, _⟩ => exact absurd rfl hb
  · show l.val - 64 + 64 = l.val
    omega

theorem cat1_lo (x₁ x₂ : S27x64x128.Idx → α) (k : Fin 27) (d l : Fin 128) (hd : d.val < 64) :
    concatenate S27x128x128 1 [⟨S27x64x128, x₁⟩, ⟨S27x64x128, x₂⟩] concatenates_S27x64x128_S27x64x128_S27x128x128_d1 (ix3 k d l)
      = x₁ (ix3 k ⟨d.val, hd⟩ l) := by
  refine concatenate_pair_apply_left (1 : Fin 3) x₁ x₂ _ (ix3 k d l) rfl (ix3 k ⟨d.val, hd⟩ l) fun b => ?_
  match b with
  | ⟨0, _⟩ => rfl
  | ⟨1, _⟩ => rfl
  | ⟨2, _⟩ => rfl

theorem cat1_hi (x₁ x₂ : S27x64x128.Idx → α) (k : Fin 27) (d l : Fin 128) (hd : 64 ≤ d.val) :
    concatenate S27x128x128 1 [⟨S27x64x128, x₁⟩, ⟨S27x64x128, x₂⟩] concatenates_S27x64x128_S27x64x128_S27x128x128_d1 (ix3 k d l)
      = x₂ (ix3 k ⟨d.val - 64, by have := d.isLt; omega⟩ l) := by
  refine concatenate_pair_apply_right (1 : Fin 3) x₁ x₂ _ (ix3 k d l) rfl rfl (ix3 k ⟨d.val - 64, by have := d.isLt; omega⟩ l)
    (fun b hb => ?_) ?_
  · match b with
    | ⟨0, _⟩ => rfl
    | ⟨1, _⟩ => exact absurd rfl hb
    | ⟨2, _⟩ => rfl
  · show d.val - 64 + 64 = d.val
    omega

end Pieces

variable (W : Valuation τ sig (Elt Ideal))

abbrev h0x : S524288x64.Idx → EReal := W (Proc.devRef .tc main_arg0)
abbrev h0w : S27x64x64.Idx → EReal := W (Proc.devRef .tc main_arg1)
abbrev h0ii : S27x131072.Idx → BitVec 32 := W (Proc.devRef .tc main_arg4)
abbrev h0v5 : S27x128x128.Idx → EReal := StableHlo.after (hostOps0 (F := Ideal)) W (Proc.devRef .tc main_v5)
abbrev h0v13 : S27x65536x128.Idx → EReal := StableHlo.after (hostOps0 (F := Ideal)) W (Proc.devRef .tc main_v13)

theorem h0v5_apply (k : Fin 27) (d l : Fin 128) :
    h0v5 W (ix3 k d l) = if d.val / 64 = l.val / 64 then
      h0w W (ix3 k ⟨d.val % 64, Nat.mod_lt _ (by norm_num)⟩ ⟨l.val % 64, Nat.mod_lt _ (by norm_num)⟩) else 0 := by
  show StableHlo.after (hostOps0 (F := Ideal)) W (Proc.devRef .tc main_v5) (ix3 k d l) = _
  after_results
  have hdl := d.isLt
  have hll := l.isLt
  by_cases hd : d.val < 64 <;> by_cases hl : l.val < 64
  · rw [cat1_lo _ _ k d l hd, cat2_lo _ _ k _ l hl, if_pos (by omega)]
    have e1 : (⟨d.val, hd⟩ : Fin 64) = ⟨d.val % 64, Nat.mod_lt _ (by norm_num)⟩ := Fin.ext (by show d.val = d.val % 64; omega)
    have e2 : (⟨l.val, hl⟩ : Fin 64) = ⟨l.val % 64, Nat.mod_lt _ (by norm_num)⟩ := Fin.ext (by show l.val = l.val % 64; omega)
    rw [e1, e2]; rfl
  · rw [cat1_lo _ _ k d l hd, cat2_hi _ _ k _ l (by omega), if_neg (by omega)]
    rw [broadcastInDim_scalar_apply]
    exact Ideal.ofBits_zero_bf16
  · rw [cat1_hi _ _ k d l (by omega), cat2_lo _ _ k _ l hl, if_neg (by omega)]
    rw [broadcastInDim_scalar_apply]
    exact Ideal.ofBits_zero_bf16
  · rw [cat1_hi _ _ k d l (by omega), cat2_hi _ _ k _ l (by omega), if_pos (by omega)]
    have e1 : (⟨d.val - 64, by omega⟩ : Fin 64) = ⟨d.val % 64, Nat.mod_lt _ (by norm_num)⟩ := Fin.ext (by show d.val - 64 = d.val % 64; omega)
    have e2 : (⟨l.val - 64, by omega⟩ : Fin 64) = ⟨l.val % 64, Nat.mod_lt _ (by norm_num)⟩ := Fin.ext (by show l.val - 64 = l.val % 64; omega)
    rw [e1, e2]; rfl

theorem h0v13_apply (k : Fin 27) (r : Fin 65536) (d : Fin 128) :
    h0v13 W (ix3 k r d) = h0x W (ix2 (Cert.Spec.srcRow (h0ii W (ix2 k
      ⟨2 * r.val + d.val / 64, by have := r.isLt; have := d.isLt; omega⟩)))
      ⟨d.val % 64, Nat.mod_lt _ (by norm_num)⟩) := by
  show StableHlo.after (hostOps0 (F := Ideal)) W (Proc.devRef .tc main_v13) (ix3 k r d) = _
  after_results
  have hr := r.isLt
  have hd := d.isLt
  have hk : (S27x131072x64.rowMajor (ix3 k (⟨2 * r.val + d.val / 64, by omega⟩ : Fin 131072)
      (⟨d.val % 64, Nat.mod_lt _ (by norm_num)⟩ : Fin 64))).val = (S27x65536x128.rowMajor (ix3 k r d)).val := by
    rw [Shape.rowMajor_val_three, Shape.rowMajor_val_three]
    show (k.val * 131072 + (2 * r.val + d.val / 64)) * 64 + d.val % 64 = (k.val * 65536 + r.val) * 128 + d.val
    omega
  refine (shapeCast_apply (s := S27x131072x64) (t := S27x65536x128) _ shapeCasts_S27x131072x64_S27x65536x128 (ix3 k r d)
    (ix3 k (⟨2 * r.val + d.val / 64, by omega⟩ : Fin 131072) (⟨d.val % 64, Nat.mod_lt _ (by norm_num)⟩ : Fin 64)) hk).trans ?_
  have hG : gather_S524288x64_S27x131072x1_S27x131072x64_2_0_n_n_0_2_164
      = Cert.LibRows.rowGatherDims3 524288 27 131072 64 Facts₀.gather_S524288x64_S27x131072x1_S27x131072x64_2_0_n_n_0_2_164_wf := rfl
  rw [hG, Cert.LibRows.rowGather3_apply (by norm_num)]
  have hb : ∀ a : Fin S27x131072.rank,
      ((ix2 k (⟨2 * r.val + d.val / 64, by omega⟩ : Fin 131072) : S27x131072.Idx) a).val
        = if S27x131072.size a = 1 then 0
          else ((ix3 k (⟨2 * r.val + d.val / 64, by omega⟩ : Fin 131072) (⟨0, Nat.one_pos⟩ : Fin 1) : S27x131072x1.Idx)
            ((![0, 1] : Fin 2 → Fin S27x131072x1.rank) a)).val := by
    intro a
    match a with
    | ⟨0, _⟩ => rfl
    | ⟨1, _⟩ => rfl
  simp only [broadcastInDim_apply (s := S27x131072) (t := S27x131072x1) _ bcast_S27x131072_S27x131072x1_0_1 _ _ _ hb]
  rfl

theorem h0v13_blk (k : Fin 27) (r : Fin 65536) (h : Fin 2) (d : Fin 64) :
    h0v13 W (ix3 k r (⟨h.val * 64 + d.val, by have := h.isLt; have := d.isLt; omega⟩ : Fin 128))
      = h0x W (ix2 (Cert.Spec.srcRow (h0ii W (ix2 k
          (⟨2 * r.val + h.val, by have := r.isLt; have := h.isLt; omega⟩ : Fin 131072)))) d) := by
  have hh := h.isLt
  have hd := d.isLt
  have hr := r.isLt
  rw [h0v13_apply]
  have e1 : (⟨2 * r.val + (h.val * 64 + d.val) / 64, by omega⟩ : Fin 131072) = ⟨2 * r.val + h.val, by omega⟩ :=
    Fin.ext (by show 2 * r.val + (h.val * 64 + d.val) / 64 = 2 * r.val + h.val; omega)
  have e2 : (⟨(h.val * 64 + d.val) % 64, Nat.mod_lt _ (by norm_num)⟩ : Fin 64) = d :=
    Fin.ext (by show (h.val * 64 + d.val) % 64 = d.val; omega)
  rw [e1, e2]

theorem h0v5_blk (k : Fin 27) (h h' : Fin 2) (d l : Fin 64) :
    h0v5 W (ix3 k (⟨h.val * 64 + d.val, by have := h.isLt; have := d.isLt; omega⟩ : Fin 128)
        (⟨h'.val * 64 + l.val, by have := h'.isLt; have := l.isLt; omega⟩ : Fin 128))
      = if h = h' then h0w W (ix3 k d l) else 0 := by
  have hh := h.isLt
  have hh' := h'.isLt
  have hd := d.isLt
  have hl := l.isLt
  rw [h0v5_apply]
  have e1 : (⟨(h.val * 64 + d.val) % 64, Nat.mod_lt _ (by norm_num)⟩ : Fin 64) = d :=
    Fin.ext (by show (h.val * 64 + d.val) % 64 = d.val; omega)
  have e2 : (⟨(h'.val * 64 + l.val) % 64, Nat.mod_lt _ (by norm_num)⟩ : Fin 64) = l :=
    Fin.ext (by show (h'.val * 64 + l.val) % 64 = l.val; omega)
  rw [e1, e2]
  by_cases hq : h = h'
  · rw [if_pos hq, if_pos (by show (h.val * 64 + d.val) / 64 = (h'.val * 64 + l.val) / 64; rw [hq]; omega)]
  · have hv : h.val ≠ h'.val := fun e => hq (Fin.ext e)
    rw [if_neg hq, if_neg (by show ¬ (h.val * 64 + d.val) / 64 = (h'.val * 64 + l.val) / 64; omega)]

end Cert.KernelIdeal.Hand

end
-- ==== Proof.LibRowScatterAdd.lean ====
import Idealize.ShloMosaic.Lib.ValueIdx
import Idealize.ShloMosaic.PureOps.Contract
import Mathlib.Algebra.BigOperators.Group.Finset.Basic
import Mathlib.Algebra.BigOperators.Group.Finset.Piecewise

noncomputable section

open scoped BigOperators

namespace Cert.LibRows

open Idealize.ShloMosaic Idealize.ShloMosaic.ValueIdx

abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowScatter_start_zero {N M C w : Nat}
    (wf : ScatterDims.WF ⟨2, ![N, C]⟩ ⟨2, ![M, 1]⟩ ⟨2, ![M, C]⟩ [1] [0] [0] 1)
    (idx : IVec ⟨2, ![M, 1]⟩ w) (j : Fin M) (c : Fin C) :
    (rowScatterDims N M C wf).start (ix2 j c) idx 0 = (idx (ix2 j ⟨0, Nat.one_pos⟩)).toInt := by
  unfold ScatterDims.start
  rw [dif_pos (show (0 : Fin 2) ∈ (rowScatterDims N M C wf).scatterDimsToOperandDims from List.mem_singleton.mpr rfl)]
  have hsi : (rowScatterDims N M C wf).siIdx (ix2 j c)
      ⟨List.idxOf (0 : Fin 2) (rowScatterDims N M C wf).scatterDimsToOperandDims,
        List.idxOf_lt_length_iff.2 (List.mem_singleton.mpr rfl)⟩ = ix2 j ⟨0, Nat.one_pos⟩ := by
    funext b; refine Fin.ext ?_
    match b with
    | ⟨0, _⟩ => rfl
    | ⟨1, _⟩ => rfl
  rw [hsi]

theorem rowScatter_start_one {N M C w : Nat}
    (wf : ScatterDims.WF ⟨2, ![N, C]⟩ ⟨2, ![M, 1]⟩ ⟨2, ![M, C]⟩ [1] [0] [0] 1)
    (idx : IVec ⟨2, ![M, 1]⟩ w) (j : Fin M) (c : Fin C) :
    (rowScatterDims N M C wf).start (ix2 j c) idx 1 = 0 := by
  unfold ScatterDims.start
  rw [dif_neg (show (1 : Fin 2) ∉ (rowScatterDims N M C wf).scatterDimsToOperandDims from
    fun h => absurd (List.mem_singleton.mp h) (by decide : ¬ (1 : Fin 2) = 0))]

theorem rowScatter_window_zero {N M C : Nat}
    (wf : ScatterDims.WF ⟨2, ![N, C]⟩ ⟨2, ![M, 1]⟩ ⟨2, ![M, C]⟩ [1] [0] [0] 1) (j : Fin M) (c : Fin C) :
    (rowScatterDims N M C wf).window (ix2 j c) 0 = 0 := by
  unfold ScatterDims.window
  rw [dif_neg (show (0 : Fin 2) ∉ (rowScatterDims N M C wf).sKept from by
    simp [ScatterDims.sKept, Shape.kept, List.mem_filter])]

theorem rowScatter_window_one {N M C : Nat}
    (wf : ScatterDims.WF ⟨2, ![N, C]⟩ ⟨2, ![M, 1]⟩ ⟨2, ![M, C]⟩ [1] [0] [0] 1) (j : Fin M) (c : Fin C) :
    (rowScatterDims N M C wf).window (ix2 j c) 1 = c.val := by
  unfold ScatterDims.window
  rw [dif_pos (show (1 : Fin 2) ∈ (rowScatterDims N M C wf).sKept from by
    simp [ScatterDims.sKept, Shape.kept, List.mem_filter, List.mem_finRange])]
  rfl

theorem rowScatter_resultIdx {N M C w : Nat}
    (wf : ScatterDims.WF ⟨2, ![N, C]⟩ ⟨2, ![M, 1]⟩ ⟨2, ![M, C]⟩ [1] [0] [0] 1)
    (idx : IVec ⟨2, ![M, 1]⟩ w) (j : Fin M) (c : Fin C) :
    (rowScatterDims N M C wf).resultIdx? (ix2 j c) idx =
      if h : 0 ≤ (idx (ix2 j ⟨0, Nat.one_pos⟩)).toInt ∧ (idx (ix2 j ⟨0, Nat.one_pos⟩)).toInt < (N : ℤ) then
        some (ix2 ⟨(idx (ix2 j ⟨0, Nat.one_pos⟩)).toInt.toNat, by omega⟩ c)
      else none := by
  have h0 := rowScatter_start_zero wf idx j c
  have h1 := rowScatter_start_one wf idx j c
  have w0 := rowScatter_window_zero wf j c
  have w1 := rowScatter_window_one wf j c
  have hc : c.val < C := c.isLt
  unfold ScatterDims.resultIdx?
  by_cases h : 0 ≤ (idx (ix2 j ⟨0, Nat.one_pos⟩)).toInt ∧ (idx (ix2 j ⟨0, Nat.one_pos⟩)).toInt < (N : ℤ)
  · have hall : ∀ a : Fin 2, 0 ≤ (rowScatterDims N M C wf).start (ix2 j c) idx a + ((rowScatterDims N M C wf).window (ix2 j c) a : ℤ) ∧
        (rowScatterDims N M C wf).start (ix2 j c) idx a + ((rowScatterDims N M C wf).window (ix2 j c) a : ℤ)
          < ((⟨2, ![N, C]⟩ : Shape).size a : ℤ) := by
      intro a
      match a with
      | ⟨0, _⟩ =>
        show 0 ≤ (rowScatterDims N M C wf).start (ix2 j c) idx 0 + ((rowScatterDims N M C wf).window (ix2 j c) 0 : ℤ) ∧
          (rowScatterDims N M C wf).start (ix2 j c) idx 0 + ((rowScatterDims N M C wf).window (ix2 j c) 0 : ℤ) < (N : ℤ)
        rw [h0, w0]; omega
      | ⟨1, _⟩ =>
        show 0 ≤ (rowScatterDims N M C wf).start (ix2 j c) idx 1 + ((rowScatterDims N M C wf).window (ix2 j c) 1 : ℤ) ∧
          (rowScatterDims N M C wf).start (ix2 j c) idx 1 + ((rowScatterDims N M C wf).window (ix2 j c) 1 : ℤ) < (C : ℤ)
        rw [h1, w1]; omega
    rw [dif_pos hall, dif_pos h]
    congr 1
    funext a
    refine Fin.ext ?_
    match a with
    | ⟨0, _⟩ =>
      show ((rowScatterDims N M C wf).start (ix2 j c) idx 0 + ((rowScatterDims N M C wf).window (ix2 j c) 0 : ℤ)).toNat
        = (idx (ix2 j ⟨0, Nat.one_pos⟩)).toInt.toNat
      rw [h0, w0]; simp
    | ⟨1, _⟩ =>
      show ((rowScatterDims N M C wf).start (ix2 j c) idx 1 + ((rowScatterDims N M C wf).window (ix2 j c) 1 : ℤ)).toNat
        = c.val
      rw [h1, w1]; simp
  · rw [dif_neg h, dif_neg]
    intro hall
    have := hall 0
    rw [h0, w0] at this
    apply h
    have hN : ((⟨2, ![N, C]⟩ : Shape).size 0 : ℤ) = (N : ℤ) := rfl
    omega

theorem rowScatter_resultIdx_eq_some_iff {N M C w : Nat}
    (wf : ScatterDims.WF ⟨2, ![N, C]⟩ ⟨2, ![M, 1]⟩ ⟨2, ![M, C]⟩ [1] [0] [0] 1)
    (idx : IVec ⟨2, ![M, 1]⟩ w) (j : Fin M) (c' : Fin C) (n : Fin N) (c : Fin C) :
    (rowScatterDims N M C wf).resultIdx? (ix2 j c') idx = some (ix2 n c) ↔
      (idx (ix2 j ⟨0, Nat.one_pos⟩)).toInt = (n.val : ℤ) ∧ c' = c := by
  rw [rowScatter_resultIdx wf idx j c']
  constructor
  · intro h
    split at h
    · rename_i hr
      have h' := Option.some.inj h
      have e0 : (idx (ix2 j ⟨0, Nat.one_pos⟩)).toInt.toNat = n.val := congrArg (fun i => ((i 0 : Fin N) : ℕ)) h'
      have e1 : c' = c := congrArg (fun i => (i 1 : Fin C)) h'
      refine ⟨?_, e1⟩
      have : ((idx (ix2 j ⟨0, Nat.one_pos⟩)).toInt.toNat : ℤ) = (idx (ix2 j ⟨0, Nat.one_pos⟩)).toInt :=
        Int.toNat_of_nonneg hr.1
      rw [← this]; exact_mod_cast e0
    · exact absurd h (by simp)
  · rintro ⟨ht, rfl⟩
    have hr : 0 ≤ (idx (ix2 j ⟨0, Nat.one_pos⟩)).toInt ∧ (idx (ix2 j ⟨0, Nat.one_pos⟩)).toInt < (N : ℤ) := by
      have := n.isLt; omega
    rw [dif_pos hr]
    congr 1
    funext a
    match a with
    | ⟨0, _⟩ => exact Fin.ext (by show (idx (ix2 j ⟨0, Nat.one_pos⟩)).toInt.toNat = n.val; omega)
    | ⟨1, _⟩ => rfl

theorem rowScatterAdd_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd (rowScatterDims N M C wf) x idx upd (ix2 n c)
      = x (ix2 n c) + ∑ j : Fin M, if (idx (ix2 j ⟨0, Nat.one_pos⟩)).toInt = (n.val : ℤ) then upd (ix2 j c) else 0 := by
  unfold Ideal.hostScatterAdd
  congr 1
  rw [Finset.sum_filter, sum_idx2]
  refine Finset.sum_congr rfl fun j _ => ?_
  simp only [rowScatter_resultIdx_eq_some_iff wf idx j _ n c]
  by_cases ht : (idx (ix2 j ⟨0, Nat.one_pos⟩)).toInt = (n.val : ℤ)
  · simp only [ht, true_and, if_true]
    rw [Finset.sum_ite_eq' Finset.univ c (fun b => upd (ix2 j b))]
    simp
  · simp only [ht, false_and, if_false, Finset.sum_const_zero]

theorem host_rowScatterAdd_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w)
    (upd : FVec Ideal ⟨2, ![M, C]⟩ φ) (n : Fin N) (c : Fin C) :
    Host.scatterAdd (F := Ideal) (rowScatterDims N M C wf) x idx upd (ix2 n c)
      = x (ix2 n c) + ∑ j : Fin M, if (idx (ix2 j ⟨0, Nat.one_pos⟩)).toInt = (n.val : ℤ) then upd (ix2 j c) else 0 :=
  rowScatterAdd_apply wf x idx upd n c

end Cert.LibRows

end
-- ==== Proof.KI.ValHost1.lean ====
import proofs.«428655_j7868380086734_3_alg».proof.Proof.Gen.KernelIdeal.Launch
import proofs.«428655_j7868380086734_3_alg».proof.Proof.LibRowScatterAdd
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Mathlib.Algebra.BigOperators.Group.Finset.Basic
import Mathlib.Algebra.BigOperators.Group.Finset.Sigma
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
open scoped BigOperators

variable (W : Valuation τ sig (Elt Ideal))

abbrev h1v14 : S27x65536x128.Idx → EReal := W (Proc.devRef .tc main_v14)
abbrev h1oi : S27x131072.Idx → BitVec 32 := W (Proc.devRef .tc main_arg5)
abbrev h1v16 : S3538944x64.Idx → EReal := StableHlo.after (hostOps1 (F := Ideal)) W (Proc.devRef .tc main_v16)
abbrev h1v18 : S524288x64.Idx → EReal := StableHlo.after (hostOps1 (F := Ideal)) W (Proc.devRef .tc main_v18)
abbrev h1v19 : S3538944x1.Idx → BitVec 32 := StableHlo.after (hostOps1 (F := Ideal)) W (Proc.devRef .tc main_v19)
abbrev h1v20 : S524288x64.Idx → EReal := StableHlo.after (hostOps1 (F := Ideal)) W (Proc.devRef .tc main_v20)

theorem h1v16_apply (k : Fin 27) (j : Fin 131072) (c' : Fin 64) :
    h1v16 W (ix2 (⟨k.val * 131072 + j.val, by have := k.isLt; have := j.isLt; omega⟩ : Fin 3538944) c')
      = h1v14 W (ix3 k (⟨j.val / 2, by have := j.isLt; omega⟩ : Fin 65536)
          (⟨(j.val % 2) * 64 + c'.val, by have := c'.isLt; omega⟩ : Fin 128)) := by
  show StableHlo.after (hostOps1 (F := Ideal)) W (Proc.devRef .tc main_v16) (ix2 _ c') = _
  after_results
  have hk' := k.isLt
  have hj := j.isLt
  have hc := c'.isLt
  have hk : (S27x65536x128.rowMajor (ix3 k (⟨j.val / 2, by omega⟩ : Fin 65536)
      (⟨(j.val % 2) * 64 + c'.val, by omega⟩ : Fin 128))).val
        = (S3538944x64.rowMajor (ix2 (⟨k.val * 131072 + j.val, by omega⟩ : Fin 3538944) c')).val := by
    rw [Shape.rowMajor_val_three, Shape.rowMajor_val_two]
    show (k.val * 65536 + j.val / 2) * 128 + ((j.val % 2) * 64 + c'.val) = (k.val * 131072 + j.val) * 64 + c'.val
    omega
  exact shapeCast_apply (s := S27x65536x128) (t := S3538944x64) _ shapeCasts_S27x65536x128_S3538944x64 _ _ hk

theorem h1v19_apply (k : Fin 27) (j : Fin 131072) :
    h1v19 W (ix2 (⟨k.val * 131072 + j.val, by have := k.isLt; have := j.isLt; omega⟩ : Fin 3538944) (⟨0, Nat.one_pos⟩ : Fin 1))
      = h1oi W (ix2 k j) := by
  show StableHlo.after (hostOps1 (F := Ideal)) W (Proc.devRef .tc main_v19) (ix2 _ _) = _
  after_results
  have hk' := k.isLt
  have hj := j.isLt
  have hb : ∀ a : Fin S3538944.rank,
      ((ix1 (⟨k.val * 131072 + j.val, by omega⟩ : Fin 3538944) : S3538944.Idx) a).val
        = if S3538944.size a = 1 then 0
          else ((ix2 (⟨k.val * 131072 + j.val, by omega⟩ : Fin 3538944) (⟨0, Nat.one_pos⟩ : Fin 1) : S3538944x1.Idx)
            ((![0] : Fin 1 → Fin S3538944x1.rank) a)).val := by
    intro a
    match a with
    | ⟨0, _⟩ => rfl
  rw [broadcastInDim_apply (s := S3538944) (t := S3538944x1) _ bcast_S3538944_S3538944x1_0 _ _ _ hb]
  have hk : (S27x131072.rowMajor (ix2 k j)).val
      = (S3538944.rowMajor (ix1 (⟨k.val * 131072 + j.val, by omega⟩ : Fin 3538944))).val := by
    rw [Shape.rowMajor_val_two, Shape.rowMajor_val_one]
    rfl
  exact shapeCast_apply (s := S27x131072) (t := S3538944) _ shapeCasts_S27x131072_S3538944 _ _ hk

theorem h1v18_apply (i : S524288x64.Idx) : h1v18 W i = 0 := by
  show StableHlo.after (hostOps1 (F := Ideal)) W (Proc.devRef .tc main_v18) i = _
  after_results
  rw [broadcastInDim_scalar_apply]
  exact Ideal.ofBits_zero_f32

theorem h1v20_eq : h1v20 W = Host.scatterAdd (F := Ideal) (φ := .f32)
    (Cert.LibRows.rowScatterDims 524288 3538944 64 Facts₀.scatter_S524288x64_S3538944x1_S3538944x64_1_0_0_1_wf)
    (h1v18 W) (h1v19 W) (h1v16 W) := by
  unfold h1v20 h1v18 h1v19 h1v16
  after_results
  rfl

theorem h1v20_apply_flat (n : Fin 524288) (c' : Fin 64) :
    h1v20 W (ix2 n c') = ∑ J : Fin 3538944,
      if (h1v19 W (ix2 J (⟨0, Nat.one_pos⟩ : Fin 1))).toInt = (n.val : ℤ) then h1v16 W (ix2 J c') else 0 := by
  rw [h1v20_eq, Cert.LibRows.host_rowScatterAdd_apply, h1v18_apply, zero_add]

def pairRow : Fin 27 × Fin 131072 ≃ Fin 3538944 where
  toFun p := ⟨p.1.val * 131072 + p.2.val, by have := p.1.isLt; have := p.2.isLt; omega⟩
  invFun J := (⟨J.val / 131072, by have := J.isLt; omega⟩, ⟨J.val % 131072, Nat.mod_lt _ (by norm_num)⟩)
  left_inv p := by
    have h1 := p.1.isLt
    have h2 := p.2.isLt
    refine Prod.ext (Fin.ext ?_) (Fin.ext ?_)
    · show (p.1.val * 131072 + p.2.val) / 131072 = p.1.val
      omega
    · show (p.1.val * 131072 + p.2.val) % 131072 = p.2.val
      omega
  right_inv J := by
    refine Fin.ext ?_
    show J.val / 131072 * 131072 + J.val % 131072 = J.val
    omega

theorem h1v20_apply (n : Fin 524288) (c' : Fin 64) :
    h1v20 W (ix2 n c') = ∑ k : Fin 27, ∑ j : Fin 131072,
      if (h1oi W (ix2 k j)).toInt = (n.val : ℤ) then
        h1v14 W (ix3 k (⟨j.val / 2, by have := j.isLt; omega⟩ : Fin 65536)
          (⟨(j.val % 2) * 64 + c'.val, by have := c'.isLt; omega⟩ : Fin 128))
      else 0 := by
  rw [h1v20_apply_flat, ← Equiv.sum_comp pairRow, Fintype.sum_prod_type]
  refine Finset.sum_congr rfl fun k _ => Finset.sum_congr rfl fun j _ => ?_
  show (if (h1v19 W (ix2 (⟨k.val * 131072 + j.val, _⟩ : Fin 3538944) (⟨0, Nat.one_pos⟩ : Fin 1))).toInt = (n.val : ℤ) then
      h1v16 W (ix2 (⟨k.val * 131072 + j.val, _⟩ : Fin 3538944) c') else 0) = _
  rw [h1v19_apply, h1v16_apply]

end Cert.KernelIdeal.Hand

end
-- ==== Proof.BnAlgebra.lean ====
import Idealize.ShloMosaic.PureOps.Ideal
import Idealize.ShloMosaic.PureOps.Ideal.Laws
import Mathlib.Data.EReal.Basic
import Mathlib.Data.EReal.Operations
import Mathlib.Algebra.BigOperators.Fin
import Mathlib.Algebra.BigOperators.Ring.Finset
import Mathlib.Algebra.Order.BigOperators.Group.Finset
import Mathlib.Tactic.FieldSimp
import Mathlib.Tactic.Ring
import Mathlib.Tactic.Positivity

noncomputable section

namespace Cert.BnAlgebra

open Idealize.ShloMosaic
open scoped BigOperators

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exists_real_sum {ι : Type*} (s : Finset ι) (f : ι → EReal)
    (h : ∀ i, ∃ r : ℝ, f i = (r : EReal)) : ∃ r : ℝ, ∑ i ∈ s, f i = (r : EReal) := by
  choose f' hf using h
  exact ⟨∑ i ∈ s, f' i, by rw [coe_sum]; exact Finset.sum_congr rfl (fun i _ => hf i)⟩

theorem finite_sum {ι : Type*} (s : Finset ι) (f : ι → EReal) (f' : ι → ℝ)
    (h : f = fun i => ((f' i : ℝ) : EReal)) : ∑ i ∈ s, f i = ((∑ i ∈ s, f' i : ℝ) : EReal) := by
  subst h
  exact (coe_sum s f').symm

theorem exists_real_mul {x y : EReal} (hx : ∃ r : ℝ, x = (r : EReal)) (hy : ∃ r : ℝ, y = (r : EReal)) :
    ∃ r : ℝ, x * y = (r : EReal) := by
  obtain ⟨p, rfl⟩ := hx
  obtain ⟨q, rfl⟩ := hy
  exact ⟨p * q, (EReal.coe_mul p q).symm⟩

theorem exists_real_sum_mul {ι : Type*} (s : Finset ι) (f g : ι → EReal)
    (hf : ∀ i, ∃ r : ℝ, f i = (r : EReal)) (hg : ∀ i, ∃ r : ℝ, g i = (r : EReal)) :
    ∃ r : ℝ, ∑ i ∈ s, f i * g i = (r : EReal) :=
  exists_real_sum s _ (fun i => exists_real_mul (hf i) (hg i))

theorem finite_sum_mul {ι : Type*} (s : Finset ι) (f g : ι → ℝ) :
    ∑ i ∈ s, (f i : EReal) * (g i : EReal) = ((∑ i ∈ s, f i * g i : ℝ) : EReal) := by
  rw [coe_sum]
  exact Finset.sum_congr rfl (fun i _ => (EReal.coe_mul _ _).symm)

theorem real_var_identity {ι : Type*} [Fintype ι] (a : ι → ℝ) (N : ℝ) (hN : 0 < N)
    (hcard : (Fintype.card ι : ℝ) = N) :
    (∑ i, (a i - (∑ i, a i) * (1 / N)) * (a i - (∑ i, a i) * (1 / N))) * (1 / N)
      = (∑ i, a i * a i) * (1 / N) - (∑ i, a i) * (1 / N) * ((∑ i, a i) * (1 / N)) := by
  have hN' : N ≠ 0 := ne_of_gt hN
  generalize hS : ∑ i, a i = S
  generalize hμ : S * (1 / N) = μ
  have hexp : ∀ i, (a i - μ) * (a i - μ) = a i * a i - 2 * μ * a i + μ * μ := fun i => by ring
  have h1 : ∑ i, (a i - μ) * (a i - μ) = (∑ i, a i * a i) - 2 * μ * S + N * (μ * μ) := by
    simp only [hexp]
    rw [Finset.sum_add_distrib, Finset.sum_sub_distrib, ← Finset.mul_sum, Finset.sum_const,
      Finset.card_univ, nsmul_eq_mul, hcard, hS]
  rw [h1, ← hμ]
  field_simp
  ring

theorem real_var_nonneg {ι : Type*} [Fintype ι] (a : ι → ℝ) (N : ℝ) (hN : 0 < N) (μ : ℝ) :
    0 ≤ (∑ i, (a i - μ) * (a i - μ)) * (1 / N) :=
  mul_nonneg (Finset.sum_nonneg (fun i _ => mul_self_nonneg _)) (by positivity)

theorem var_two_pass_eq_one_pass {ι : Type*} [Fintype ι] (a : ι → ℝ) (N : ℝ) (hN : 0 < N)
    (hcard : (Fintype.card ι : ℝ) = N) :
    Ideal.div (∑ i, ((a i : EReal) - Ideal.div (∑ i, (a i : EReal)) (N : EReal))
        * ((a i : EReal) - Ideal.div (∑ i, (a i : EReal)) (N : EReal))) (N : EReal)
      = max (Ideal.div (∑ i, (a i : EReal) * (a i : EReal)) (N : EReal)
          - Ideal.div (∑ i, (a i : EReal)) (N : EReal) * Ideal.div (∑ i, (a i : EReal)) (N : EReal)) 0 := by
  have hN' : N ≠ 0 := ne_of_gt hN
  have key := real_var_identity a N hN hcard
  have nn := real_var_nonneg a N hN ((∑ i, a i) * (1 / N))
  rw [key] at nn
  simp only [Ideal.div_coe hN', ← coe_sum, ← EReal.coe_mul, ← EReal.coe_sub]
  rw [key, max_eq_left (by exact_mod_cast nn)]

theorem sum_pairs {M : Type} [AddCommMonoid M] (n : ℕ) (f : Fin (2 * n) → M) :
    ∑ i, f i = (∑ r : Fin n, f ⟨2 * r.val, by omega⟩) + ∑ r : Fin n, f ⟨2 * r.val + 1, by omega⟩ := by
  rw [← Equiv.sum_comp (finProdFinEquiv.trans (finCongr (Nat.mul_comm n 2))) f, Fintype.sum_prod_type]
  simp only [Fin.sum_univ_two]
  rw [Finset.sum_add_distrib]
  congr 1
  · exact Finset.sum_congr rfl (fun r _ => congrArg f (Fin.ext (by simp [finProdFinEquiv])))
  · exact Finset.sum_congr rfl (fun r _ => congrArg f (Fin.ext (by simp [finProdFinEquiv]; omega)))

end Cert.BnAlgebra

end
-- ==== Proof.SpecFacts.lean ====
import proofs.«428655_j7868380086734_3_alg».proof.Proof.Spec
import proofs.«428655_j7868380086734_3_alg».proof.Proof.BnAlgebra

noncomputable section

namespace Cert.Spec

open Idealize.ShloMosaic Idealize.ShloMosaic.ValueIdx
open scoped BigOperators

theorem Nf_eq : Nf = ((524288 : ℝ) : EReal) := by
  unfold Nf
  simp [Ideal.ofBits, Ideal.ieee, -EReal.coe_mul]
  norm_num

theorem ofBits_zero : Ideal.ofBits .f32 0x00000000#32 = 0 := by
  simp [Ideal.ofBits, Ideal.ieee]

theorem wrap_of_nonneg {v : BitVec 32} (h : 0 ≤ v.toInt) : wrap v = v := by
  have hs : v.slt 0#32 = false := by
    rw [Bool.eq_false_iff]
    intro hs
    rw [BitVec.slt_iff_toInt_lt, show (0#32 : BitVec 32).toInt = 0 from by decide] at hs
    omega
  have hlt : ¬ IntOp.cmpi .slt v 0#32 = 1 := by
    simp only [IntOp.cmpi, hs]
    decide
  unfold wrap Scalar.select
  exact if_neg hlt

theorem scat_wrap (oi : SI.Idx → BitVec 32) (h : ∀ i, 0 ≤ (oi i).toInt) (x : SX.Idx → EReal) (W : SWt.Idx → EReal)
    (ii : SI.Idx → BitVec 32) :
    scat (fun k j => wrap (oi (ix2 k j))) x W ii = scat (fun k j => oi (ix2 k j)) x W ii := by
  have e : (fun (k : Fin 27) (j : Fin 131072) => wrap (oi (ix2 k j))) = fun k j => oi (ix2 k j) :=
    funext fun k => funext fun j => wrap_of_nonneg (h _)
  rw [e]

theorem scat_real (dst : Fin 27 → Fin 131072 → BitVec 32) (x : SX.Idx → EReal) (W : SWt.Idx → EReal)
    (ii : SI.Idx → BitVec 32) (hx : ∀ i, ∃ r : ℝ, x i = (r : EReal)) (hW : ∀ i, ∃ r : ℝ, W i = (r : EReal)) :
    ∃ a' : Fin 524288 → Fin 64 → ℝ, ∀ n c, scat dst x W ii n c = ((a' n c : ℝ) : EReal) := by
  choose x' hx' using hx
  choose W' hW' using hW
  refine ⟨fun n c => ∑ k : Fin 27, ∑ j : Fin 131072,
    if (dst k j).toInt = (n.val : ℤ) then ∑ d : Fin 64, x' (ix2 (srcRow (ii (ix2 k j))) d) * W' (ix3 k d c) else 0,
    fun n c => ?_⟩
  unfold scat contrib
  rw [Cert.BnAlgebra.coe_sum]
  refine Finset.sum_congr rfl (fun k _ => ?_)
  rw [Cert.BnAlgebra.coe_sum]
  refine Finset.sum_congr rfl (fun j _ => ?_)
  split
  · simp only [hx', hW']
    exact Cert.BnAlgebra.finite_sum_mul _ _ _
  · exact EReal.coe_zero.symm

theorem varDev_eq_varSq (a : Fin 524288 → Fin 64 → EReal) (a' : Fin 524288 → Fin 64 → ℝ)
    (ha : ∀ n c, a n c = ((a' n c : ℝ) : EReal)) (c : Fin 64) : varDev a c = varSq a c := by
  unfold varDev varSq mean
  simp only [ha, Nf_eq]
  exact Cert.BnAlgebra.var_two_pass_eq_one_pass (fun n => a' n c) 524288 (by norm_num) (by simp)

theorem bn_varDev_eq_varSq (a : Fin 524288 → Fin 64 → EReal) (a' : Fin 524288 → Fin 64 → ℝ)
    (ha : ∀ n c, a n c = ((a' n c : ℝ) : EReal)) (g b : Fin 64 → EReal) :
    bn (varDev a) a g b = bn (varSq a) a g b := by
  funext n c
  unfold bn
  rw [varDev_eq_varSq a a' ha c]

end Cert.Spec

end
-- ==== Proof.KI.ValAcc.lean ====
import proofs.«428655_j7868380086734_3_alg».proof.Proof.KI.Run
import proofs.«428655_j7868380086734_3_alg».proof.Proof.KI.Arr0
import proofs.«428655_j7868380086734_3_alg».proof.Proof.KI.ValHost0W
import proofs.«428655_j7868380086734_3_alg».proof.Proof.KI.ValHost1
import proofs.«428655_j7868380086734_3_alg».proof.Proof.Spec
import proofs.«428655_j7868380086734_3_alg».proof.Proof.SpecFacts
import Mathlib.Algebra.BigOperators.Group.Finset.Basic
import Mathlib.Algebra.BigOperators.Group.Finset.Sigma

set_option maxRecDepth 16384

noncomputable section

namespace Cert.KernelIdeal.Hand

open Cert.KernelIdeal Cert.KernelIdeal.Gen Idealize.ShloMosaic Idealize.ShloMosaic.TcCoe Idealize.ShloMosaic.ValueIdx
open scoped BigOperators

variable (m : (ℓ : Loc nD τ sig) → Buf (Elt Ideal) ℓ)

abbrev argX (c : Dev nD) : S524288x64.Idx → EReal := m ((c : Thread nD τ).loc main_arg0)
abbrev argW (c : Dev nD) : S27x64x64.Idx → EReal := m ((c : Thread nD τ).loc main_arg1)
abbrev argIn (c : Dev nD) : S27x131072.Idx → BitVec 32 := m ((c : Thread nD τ).loc main_arg4)
abbrev argOut (c : Dev nD) : S27x131072.Idx → BitVec 32 := m ((c : Thread nD τ).loc main_arg5)
abbrev accArr (c : Dev nD) : S524288x64.Idx → EReal := V3 (F := Ideal) m c main_v20

def halves : Fin 2 × Fin 64 ≃ Fin 128 where
  toFun p := ⟨p.1.val * 64 + p.2.val, by have := p.1.isLt; have := p.2.isLt; omega⟩
  invFun d := (⟨d.val / 64, by have := d.isLt; omega⟩, ⟨d.val % 64, Nat.mod_lt _ (by norm_num)⟩)
  left_inv p := by
    have h1 := p.1.isLt
    have h2 := p.2.isLt
    refine Prod.ext (Fin.ext ?_) (Fin.ext ?_)
    · show (p.1.val * 64 + p.2.val) / 64 = p.1.val
      omega
    · show (p.1.val * 64 + p.2.val) % 64 = p.2.val
      omega
  right_inv d := by
    refine Fin.ext ?_
    show d.val / 64 * 64 + d.val % 64 = d.val
    omega

theorem sum_halves (f : Fin 128 → EReal) :
    ∑ d, f d = ∑ h : Fin 2, ∑ d' : Fin 64,
      f (⟨h.val * 64 + d'.val, by have := h.isLt; have := d'.isLt; omega⟩ : Fin 128) := by
  rw [← Equiv.sum_comp halves f, Fintype.sum_prod_type]
  rfl

theorem oi_through (c : Dev nD) : h1oi (W2 (F := Ideal) m c) = argOut m c := by
  show W2 (F := Ideal) m c (Proc.devRef .tc main_arg5) = _
  rw [W2_of_ne m c main_arg5 (by decide)]
  exact (StableHlo.after_of_writes_sub hostOps0 _ hostOps0_writes (by decide)).trans rfl

theorem v14_through (c : Dev nD) (k : Fin 27) (r : Fin 65536) (l : Fin 128) :
    h1v14 (W2 (F := Ideal) m c) (ix3 k r l)
      = ∑ d : Fin 128, h0v13 (W0 m c) (ix3 k r d) * h0v5 (W0 m c) (ix3 k d l) := by
  have e : h1v14 (W2 (F := Ideal) m c) = res0 (V1 m) c := W2_arr m c 2
  rw [e]
  exact arrAt0_2_apply (V1 m) c k r l

theorem prod_blk (c : Dev nD) (k : Fin 27) (r : Fin 65536) (h : Fin 2) (c' : Fin 64) :
    h1v14 (W2 (F := Ideal) m c) (ix3 k r (⟨h.val * 64 + c'.val, by have := h.isLt; have := c'.isLt; omega⟩ : Fin 128))
      = Cert.Spec.contrib (argX m c) (argW m c) (argIn m c) k
          (⟨2 * r.val + h.val, by have := r.isLt; have := h.isLt; omega⟩ : Fin 131072) c' := by
  rw [v14_through, sum_halves]
  unfold Cert.Spec.contrib
  rw [Finset.sum_eq_single h]
  · refine Finset.sum_congr rfl fun d' _ => ?_
    rw [h0v13_blk, h0v5_blk, if_pos rfl]
  · intro b _ hb
    refine Finset.sum_eq_zero fun d' _ => ?_
    rw [h0v5_blk, if_neg hb, mul_zero]
  · intro hh
    exact absurd (Finset.mem_univ _) hh

theorem acc_apply (c : Dev nD) (n : Fin 524288) (c' : Fin 64) :
    accArr m c (ix2 n c') = Cert.Spec.scat (fun k j => argOut m c (ix2 k j)) (argX m c) (argW m c) (argIn m c) n c' := by
  show h1v20 (W2 (F := Ideal) m c) (ix2 n c') = _
  rw [h1v20_apply]
  unfold Cert.Spec.scat
  refine Finset.sum_congr rfl fun k _ => Finset.sum_congr rfl fun j _ => ?_
  rw [oi_through]
  have hj := j.isLt
  have hp := prod_blk m c k (⟨j.val / 2, by omega⟩ : Fin 65536) (⟨j.val % 2, Nat.mod_lt _ (by norm_num)⟩ : Fin 2) c'
  have ej : (⟨2 * (j.val / 2) + j.val % 2, by omega⟩ : Fin 131072) = j :=
    Fin.ext (by show 2 * (j.val / 2) + j.val % 2 = j.val; omega)
  rw [ej] at hp
  rw [hp]

end Cert.KernelIdeal.Hand

end
-- ==== Proof.KI.Arr1.lean ====
import proofs.«428655_j7868380086734_3_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev t31 : Fin cfg1.N := ⟨31, by decide⟩

section Region1
variable (V : (c : Dev nD) → (b : Ref sig .tc) → Buf (Elt F) ((c : Thread nD τ).loc b))

theorem flushed1_1_eq (c : Dev nD) (t : Fin cfg1.N) (hf : (cfg1.win 1).flush t = true) :
    (dat1 V c).flushed 1 t = ((cfg1.win 1).blk t).view.read (Elt F) ((acc1 V c 31 (by decide)).1 : Buf (Elt F) ((c : Thread nD τ).loc main_v22_0)) := by
  have hN : cfg1.N = 32 := N_1
  have h1 : t.val = 31 := by have := (flush1_1 t).mp hf; have := t.isLt; omega
  obtain rfl : t = t31 := Fin.ext h1
  show (cfg1.win 1).cut (grid1.coords t31) ((dat1 V c).after 1 t31) = _
  rw [after1_1]
  have hz' : (fun a => win1_1.index t31 a * main_v22_0.ty.shape.size a) = fun _ => 0 := funext fun a => by fin_cases a <;> decide
  exact (Memref.read_access_unit_zero (Elt F) main_v22_0 hz' (fun a => by rw [congrFun hz' a]; simp) _).symm

theorem arr1_1 (c : Dev nD) : (dat1 V c).arrAt 1 cfg1.N = (acc1 V c 31 (by decide)).1 :=
  (dat1 V c).arrAt_eq_of_cover 1 _ (flushed1_1_eq V c) fun i =>
    ⟨t31, (flush1_1 t31).mpr rfl, by
      show i ∈ ((View.whole main_v22_0).slice (win1_1.rect t31)).set
      rw [View.set_slice_whole, Rect.mem_set_unit]
      intro a
      have h0 : (i 0 : Nat) < 1 := (i 0).isLt
      have h1 : (i 1 : Nat) < 128 := (i 1).isLt
      match a with
      | ⟨0, _⟩ => show win1_1.index t31 0 * win1_1.size 0 ≤ (i 0 : Nat) ∧ (i 0 : Nat) < win1_1.index t31 0 * win1_1.size 0 + win1_1.xsize (grid1.coords t31) 0
                  rw [show win1_1.index t31 0 * win1_1.size 0 = 0 from by decide +kernel, show win1_1.xsize (grid1.coords t31) 0 = 1 from by decide +kernel]; omega
      | ⟨1, _⟩ => show win1_1.index t31 1 * win1_1.size 1 ≤ (i 1 : Nat) ∧ (i 1 : Nat) < win1_1.index t31 1 * win1_1.size 1 + win1_1.xsize (grid1.coords t31) 1
                  rw [show win1_1.index t31 1 * win1_1.size 1 = 0 from by decide +kernel, show win1_1.xsize (grid1.coords t31) 1 = 128 from by decide +kernel]; omega⟩

theorem flushed1_2_eq (c : Dev nD) (t : Fin cfg1.N) (hf : (cfg1.win 2).flush t = true) :
    (dat1 V c).flushed 2 t = ((cfg1.win 2).blk t).view.read (Elt F) ((acc1 V c 31 (by decide)).2 : Buf (Elt F) ((c : Thread nD τ).loc main_v22_1)) := by
  have hN : cfg1.N = 32 := N_1
  have h1 : t.val = 31 := by have := (flush1_2 t).mp hf; have := t.isLt; omega
  obtain rfl : t = t31 := Fin.ext h1
  show (cfg1.win 2).cut (grid1.coords t31) ((dat1 V c).after 2 t31) = _
  rw [after1_2]
  have hz' : (fun a => win1_2.index t31 a * main_v22_1.ty.shape.size a) = fun _ => 0 := funext fun a => by fin_cases a <;> decide
  exact (Memref.read_access_unit_zero (Elt F) main_v22_1 hz' (fun a => by rw [congrFun hz' a]; simp) _).symm

theorem arr1_2 (c : Dev nD) : (dat1 V c).arrAt 2 cfg1.N = (acc1 V c 31 (by decide)).2 :=
  (dat1 V c).arrAt_eq_of_cover 2 _ (flushed1_2_eq V c) fun i =>
    ⟨t31, (flush1_2 t31).mpr rfl, by
      show i ∈ ((View.whole main_v22_1).slice (win1_2.rect t31)).set
      rw [View.set_slice_whole, Rect.mem_set_unit]
      intro a
      have h0 : (i 0 : Nat) < 1 := (i 0).isLt
      have h1 : (i 1 : Nat) < 128 := (i 1).isLt
      match a with
      | ⟨0, _⟩ => show win1_2.index t31 0 * win1_2.size 0 ≤ (i 0 : Nat) ∧ (i 0 : Nat) < win1_2.index t31 0 * win1_2.size 0 + win1_2.xsize (grid1.coords t31) 0
                  rw [show win1_2.index t31 0 * win1_2.size 0 = 0 from by decide +kernel, show win1_2.xsize (grid1.coords t31) 0 = 1 from by decide +kernel]; omega
      | ⟨1, _⟩ => show win1_2.index t31 1 * win1_2.size 1 ≤ (i 1 : Nat) ∧ (i 1 : Nat) < win1_2.index t31 1 * win1_2.size 1 + win1_2.xsize (grid1.coords t31) 1
                  rw [show win1_2.index t31 1 * win1_2.size 1 = 0 from by decide +kernel, show win1_2.xsize (grid1.coords t31) 1 = 128 from by decide +kernel]; omega⟩

end Region1

end Cert.KernelIdeal.Hand

end
-- ==== Proof.KI.Sum1.lean ====
import proofs.«428655_j7868380086734_3_alg».proof.Proof.KI.Arr1
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

theorem pay4_at (x : Vec Ideal S8192x128 .f32) (s : Vec Ideal S1x128 .f32) (l : Fin 128) :
    k1_pay4 x s (ix2 0 l) = s (ix2 0 l) + ∑ k : Fin 8192, x (ix2 k l) := by
  unfold k1_pay4 k1_pay3
  simp only [shapeCast_self]
  rw [addf_apply, shapeCast_a_1a_apply]
  congr 1
  refine (Ideal.multiReduction_add_single (φ := .f32) x _ reduces_S8192x128_S128 _ _ (ix1 l)).trans ?_
  refine Finset.sum_congr rfl fun k _ => congrArg x ?_
  funext a; apply Fin.ext
  match a with
  | ⟨0, _⟩ => rfl
  | ⟨1, _⟩ => rfl

theorem pay5_at (x : Vec Ideal S8192x128 .f32) (s : Vec Ideal S1x128 .f32) (l : Fin 128) :
    k1_pay5 x s (ix2 0 l) = s (ix2 0 l) + ∑ k : Fin 8192, x (ix2 k l) * x (ix2 k l) := by
  unfold k1_pay5 k1_pay3
  simp only [shapeCast_self]
  rw [addf_apply, shapeCast_a_1a_apply]
  congr 1
  refine (Ideal.multiReduction_add_single (φ := .f32) (mulf x x) _ reduces_S8192x128_S128 _ _ (ix1 l)).trans ?_
  refine Finset.sum_congr rfl fun k _ => ?_
  exact congrArg (fun i => x i * x i) (show (reduces_S8192x128_S128.lift (ix1 l) k : S8192x128.Idx) = ix2 k l from by
    funext a; apply Fin.ext
    match a with
    | ⟨0, _⟩ => rfl
    | ⟨1, _⟩ => rfl)

theorem pay1_at (j : S1x128.Idx) : k1_pay1 (F := Ideal) j = 0 := by
  unfold k1_pay1
  simp only [shapeCast_self]
  exact IdealRules.sign_bit.ideal_zero .f32

theorem pay2_at (j : S1x128.Idx) : k1_pay2 (F := Ideal) j = 0 := by
  unfold k1_pay2
  simp only [shapeCast_self]
  exact IdealRules.sign_bit.ideal_zero .f32

section Region1
variable (V : (c : Dev nD) → (b : Ref sig .tc) → Buf (Elt Ideal) ((c : Thread nD τ).loc b))

theorem idx1_0 : ∀ t : Fin cfg1.N, win1_0.index t 0 = t.val ∧ win1_0.index t 1 = 0 :=
  (by decide +kernel : ∀ t : Fin grid1.N, win1_0.index t 0 = t.val ∧ win1_0.index t 1 = 0)

theorem iblk1_at (c : Dev nD) (t : Fin cfg1.N) (k : Fin 8192) (l : Fin 128) (hr : 8192 * t.val + k.val < 262144) :
    (iblk1 V c 0 t : Vec Ideal S8192x128 .f32) (ix2 k l)
      = (V c main_v21 : S262144x128.Idx → Elt Ideal .f32) (ix2 ⟨8192 * t.val + k.val, hr⟩ l) := by
  obtain ⟨hi0, hi1⟩ := idx1_0 t
  unfold iblk1
  rw [View.read_apply]
  show V c main_v21 _ = V c main_v21 _
  congr 1
  funext a
  apply Fin.ext
  match a with
  | ⟨0, _⟩ => show win1_0.index t 0 * 8192 + 1 * k.val = 8192 * t.val + k.val; rw [hi0]; omega
  | ⟨1, _⟩ => show win1_0.index t 1 * 128 + 1 * l.val = l.val; rw [hi1]; omega

def col1 (c : Dev nD) (l : Fin 128) (r : ℕ) : EReal :=
  if h : r < 262144 then (V c main_v21 : S262144x128.Idx → Elt Ideal .f32) (ix2 ⟨r, h⟩ l) else 0

theorem iblk1_col (c : Dev nD) (t : Fin cfg1.N) (k : Fin 8192) (l : Fin 128) :
    (iblk1 V c 0 t : Vec Ideal S8192x128 .f32) (ix2 k l) = col1 V c l (8192 * t.val + k.val) := by
  have hN : t.val < 32 := lt_of_lt_of_eq t.isLt (show cfg1.N = 32 from N_1)
  have hr : 8192 * t.val + k.val < 262144 := by have := k.isLt; omega
  rw [iblk1_at V c t k l hr, col1, dif_pos hr]

end Region1

theorem blocks_sum {M : Type} [AddCommMonoid M] {N : ℕ} (g : ℕ → M) (a : (n : ℕ) → n < N → M)
    (h0 : ∀ h, a 0 h = 0 + ∑ k : Fin 8192, g (8192 * 0 + k.val))
    (hs : ∀ n (h : n + 1 < N), a (n + 1) h = a n (Nat.lt_of_succ_lt h) + ∑ k : Fin 8192, g (8192 * (n + 1) + k.val)) :
    ∀ n (h : n < N), a n h = ∑ r ∈ Finset.range (8192 * (n + 1)), g r := by
  intro n
  induction n with
  | zero =>
    intro h
    rw [h0 h, zero_add, Fin.sum_univ_eq_sum_range (fun k => g (8192 * 0 + k)) 8192]
    exact Finset.sum_congr rfl fun k _ => by rw [Nat.mul_zero, Nat.zero_add]
  | succ n ih =>
    intro h
    rw [hs n h, ih (Nat.lt_of_succ_lt h), Fin.sum_univ_eq_sum_range (fun k => g (8192 * (n + 1) + k)) 8192,
      show 8192 * (n + 1 + 1) = 8192 * (n + 1) + 8192 from by ring, Finset.sum_range_add]

section Region1
variable (V : (c : Dev nD) → (b : Ref sig .tc) → Buf (Elt Ideal) ((c : Thread nD τ).loc b))

def in1 (c : Dev nD) (r : Fin 262144) (l : Fin 128) : EReal :=
  (V c main_v21 : S262144x128.Idx → Elt Ideal .f32) (ix2 r l)

theorem col1_lt (c : Dev nD) (l : Fin 128) (r : Fin 262144) : col1 V c l r.val = in1 V c r l := by
  rw [col1, dif_pos r.isLt]; rfl

def s1 (c : Dev nD) (l : Fin 128) (n : ℕ) (h : n < cfg1.N) : EReal := (acc1 V c n h).1 (ix2 0 l)
def q1 (c : Dev nD) (l : Fin 128) (n : ℕ) (h : n < cfg1.N) : EReal := (acc1 V c n h).2 (ix2 0 l)

theorem s1_zero (c : Dev nD) (l : Fin 128) (h : 0 < cfg1.N) :
    s1 V c l 0 h = 0 + ∑ k : Fin 8192, col1 V c l (8192 * 0 + k.val) := by
  unfold s1; rw [acc1_zero]; dsimp only
  rw [pay4_at, pay1_at]
  exact congrArg (0 + ·) (Finset.sum_congr rfl fun k _ => iblk1_col V c ⟨0, h⟩ k l)

theorem s1_succ (c : Dev nD) (l : Fin 128) (n : ℕ) (h : n + 1 < cfg1.N) :
    s1 V c l (n + 1) h = s1 V c l n (Nat.lt_of_succ_lt h) + ∑ k : Fin 8192, col1 V c l (8192 * (n + 1) + k.val) := by
  unfold s1; rw [acc1_succ]; dsimp only
  rw [pay4_at]
  exact congrArg (_ + ·) (Finset.sum_congr rfl fun k _ => iblk1_col V c ⟨n + 1, h⟩ k l)

theorem q1_zero (c : Dev nD) (l : Fin 128) (h : 0 < cfg1.N) :
    q1 V c l 0 h = 0 + ∑ k : Fin 8192, col1 V c l (8192 * 0 + k.val) * col1 V c l (8192 * 0 + k.val) := by
  unfold q1; rw [acc1_zero]; dsimp only
  rw [pay5_at, pay2_at]
  exact congrArg (0 + ·) (Finset.sum_congr rfl fun k _ => by rw [iblk1_col V c ⟨0, h⟩ k l])

theorem q1_succ (c : Dev nD) (l : Fin 128) (n : ℕ) (h : n + 1 < cfg1.N) :
    q1 V c l (n + 1) h = q1 V c l n (Nat.lt_of_succ_lt h)
      + ∑ k : Fin 8192, col1 V c l (8192 * (n + 1) + k.val) * col1 V c l (8192 * (n + 1) + k.val) := by
  unfold q1; rw [acc1_succ]; dsimp only
  rw [pay5_at]
  exact congrArg (_ + ·) (Finset.sum_congr rfl fun k _ => by rw [iblk1_col V c ⟨n + 1, h⟩ k l])

theorem s1_partial (c : Dev nD) (l : Fin 128) (n : ℕ) (h : n < cfg1.N) :
    s1 V c l n h = ∑ r ∈ Finset.range (8192 * (n + 1)), col1 V c l r :=
  blocks_sum (col1 V c l) (s1 V c l) (s1_zero V c l) (s1_succ V c l) n h

theorem q1_partial (c : Dev nD) (l : Fin 128) (n : ℕ) (h : n < cfg1.N) :
    q1 V c l n h = ∑ r ∈ Finset.range (8192 * (n + 1)), col1 V c l r * col1 V c l r :=
  blocks_sum (fun r => col1 V c l r * col1 V c l r) (q1 V c l) (q1_zero V c l) (q1_succ V c l) n h

theorem rows_all : 8192 * (31 + 1) = 262144 := by norm_num

theorem acc1_sum (c : Dev nD) (l : Fin 128) :
    (acc1 V c 31 (by decide)).1 (ix2 0 l) = ∑ r : Fin 262144, in1 V c r l := by
  have e := s1_partial V c l 31 (by decide)
  rw [rows_all, ← Fin.sum_univ_eq_sum_range (col1 V c l) 262144] at e
  exact e.trans (Finset.sum_congr rfl fun r _ => col1_lt V c l r)

theorem acc1_sumsq (c : Dev nD) (l : Fin 128) :
    (acc1 V c 31 (by decide)).2 (ix2 0 l) = ∑ r : Fin 262144, in1 V c r l * in1 V c r l := by
  have e := q1_partial V c l 31 (by decide)
  rw [rows_all, ← Fin.sum_univ_eq_sum_range (fun r => col1 V c l r * col1 V c l r) 262144] at e
  exact e.trans (Finset.sum_congr rfl fun r _ => by rw [col1_lt V c l r])

end Region1

section Region1
variable (V : (c : Dev nD) → (b : Ref sig .tc) → Buf (Elt Ideal) ((c : Thread nD τ).loc b))

theorem arr1_1_sum (c : Dev nD) (l : Fin 128) :
    (dat1 V c).arrAt 1 cfg1.N (ix2 0 l) = ∑ r : Fin 262144, in1 V c r l :=
  (congrFun (arr1_1 V c) (ix2 0 l)).trans (acc1_sum V c l)

theorem arr1_2_sumsq (c : Dev nD) (l : Fin 128) :
    (dat1 V c).arrAt 2 cfg1.N (ix2 0 l) = ∑ r : Fin 262144, in1 V c r l * in1 V c r l :=
  (congrFun (arr1_2 V c) (ix2 0 l)).trans (acc1_sumsq V c l)

end Region1

end Cert.KernelIdeal.Hand

end
-- ==== Proof.KI.Arr2.lean ====
import proofs.«428655_j7868380086734_3_alg».proof.Proof.KI.Reg2
import proofs.«428655_j7868380086734_3_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev x2 (c : Dev nD) : S262144x128.Idx → EReal := V c main_v21
abbrev mean2 (c : Dev nD) : S1x128.Idx → EReal := V c main_v39
abbrev var2 (c : Dev nD) : S1x128.Idx → EReal := V c main_v40
abbrev gamma2 (c : Dev nD) : S1x128.Idx → EReal := V c main_v41
abbrev beta2 (c : Dev nD) : S1x128.Idx → EReal := V c main_v42
abbrev res2 (c : Dev nD) : S262144x128.Idx → EReal := (dat2 V c).arrAt 5 cfg2.N

def normClamp (x : S262144x128.Idx → EReal) (mean var gamma beta : S1x128.Idx → EReal) : S262144x128.Idx → EReal :=
  fun i => max ((((x i - mean (ix2 0 (i 1))) * Ideal.rsqrt (var (ix2 0 (i 1)) + Ideal.ofBits .f32 0x3727C5AC#32))
      * gamma (ix2 0 (i 1))) + beta (ix2 0 (i 1))) 0

theorem zeros2 : (![0, 0] : Fin 2 → Nat) = fun _ => 0 := funext fun a => by fin_cases a <;> rfl

theorem rowAlongRows_apply (x : S1x128.Idx → EReal) (r : Fin 8192) (l : Fin 128) :
    broadcastTo S8192x128 x broadcasts_S1x128_S8192x128 (ix2 r l) = x (ix2 0 l) :=
  broadcastTo_apply x broadcasts_S1x128_S8192x128 (ix2 r l) (ix2 0 l) fun a =>
    match a with | ⟨0, _⟩ => rfl | ⟨1, _⟩ => rfl

theorem normClampBlock_apply (x0 : S8192x128.Idx → EReal) (v m g b : S1x128.Idx → EReal) (r : Fin 8192) (l : Fin 128) :
    k2_pay1 (F := Ideal) x0 v m g b (ix2 r l)
      = max ((((x0 (ix2 r l) - m (ix2 0 l)) * Ideal.rsqrt (v (ix2 0 l) + Ideal.ofBits .f32 0x3727C5AC#32)) * g (ix2 0 l)) + b (ix2 0 l)) 0 := by
  unfold k2_pay1
  simp only [shapeCast_self]
  show max ((((x0 (ix2 r l) - broadcastTo S8192x128 m broadcasts_S1x128_S8192x128 (ix2 r l))
      * broadcastTo S8192x128 (fun i => Ideal.rsqrt (v i + Ideal.ofBits .f32 0x3727C5AC#32)) broadcasts_S1x128_S8192x128 (ix2 r l))
      * broadcastTo S8192x128 g broadcasts_S1x128_S8192x128 (ix2 r l)) + broadcastTo S8192x128 b broadcasts_S1x128_S8192x128 (ix2 r l))
    (Ideal.ofBits .f32 0x00000000#32) = _
  rw [rowAlongRows_apply, rowAlongRows_apply, rowAlongRows_apply, rowAlongRows_apply, Ideal.ofBits_zero_f32]

theorem index_facts2 : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem index_onto2 : ∀ q : Fin 32, ∃ t : Fin cfg2.N, win2_5.index t = ![q.val, 0] :=
  (by decide +kernel : ∀ q : Fin 32, ∃ t : Fin grid2.N, win2_5.index t = ![q.val, 0])

theorem flushed2_5_eq (c : Dev nD) (t : Fin cfg2.N) :
    (dat2 V c).flushed 5 t = ((cfg2.win 5).blk t).view.read (Elt Ideal)
      (normClamp (V c main_v21) (V c main_v39) (V c main_v40) (V c main_v41) (V c main_v42)) := by
  show (cfg2.win 5).cut (grid2.coords t) ((dat2 V c).after 5 t) = _
  rw [after2_5]
  unfold out2_5
  rw [View.canon_unit_zero zeros2]
  simp only [View.ld_unit_zero (S := S8192x128) zeros2, View.ld_unit_zero (S := S1x128) zeros2]
  obtain ⟨e0, e1, e2, e3, e4, e5, e6, e7, e8, e9, e10⟩ := index_facts2 t
  funext j
  obtain ⟨r, l, rfl⟩ : ∃ (r : Fin 8192) (l : Fin 128), j = ix2 r l := ⟨j 0, j 1, eq_ix2 j⟩
  show k2_pay1 (F := Ideal) (iblk2 V c 0 t) (iblk2 V c 2 t) (iblk2 V c 1 t) (iblk2 V c 3 t) (iblk2 V c 4 t) (ix2 r l)
    = normClamp (V c main_v21) (V c main_v39) (V c main_v40) (V c main_v41) (V c main_v42) (((cfg2.win 5).blk t).view.emb (ix2 r l))
  rw [normClampBlock_apply]
  unfold normClamp
  have hx : (iblk2 V c 0 t : S8192x128.Idx → EReal) (ix2 r l) = (V c main_v21 : S262144x128.Idx → EReal) (((cfg2.win 5).blk t).view.emb (ix2 r l)) := by
    show (V c main_v21 : S262144x128.Idx → EReal) (((cfg2.win 0).blk t).view.emb (ix2 r l)) = _
    refine congrArg _ (funext fun a => Fin.ext ?_)
    match a with
    | ⟨0, _⟩ => show win2_0.index t (0 : Fin 2) * 8192 + 1 * r.val = win2_5.index t (0 : Fin 2) * 8192 + 1 * r.val; omega
    | ⟨1, _⟩ => show win2_0.index t (1 : Fin 2) * 128 + 1 * l.val = win2_5.index t (1 : Fin 2) * 128 + 1 * l.val; omega
  have hcol : ((((cfg2.win 5).blk t).view.emb (ix2 r l) : S262144x128.Idx) 1) = l := by
    apply Fin.ext
    show win2_5.index t (1 : Fin 2) * 128 + 1 * l.val = l.val; omega
  have hm : (iblk2 V c 1 t : S1x128.Idx → EReal) (ix2 0 l) = (V c main_v39 : S1x128.Idx → EReal) (ix2 0 l) := by
    show (V c main_v39 : S1x128.Idx → EReal) (((cfg2.win 1).blk t).view.emb (ix2 0 l)) = _
    refine congrArg _ (funext fun a => Fin.ext ?_)
    match a with
    | ⟨0, _⟩ => show win2_1.index t (0 : Fin 2) * 1 + 1 * (0 : Fin 1).val = (0 : Fin 1).val; simp [e3]
    | ⟨1, _⟩ => show win2_1.index t (1 : Fin 2) * 128 + 1 * l.val = l.val; omega
  have hv : (iblk2 V c 2 t : S1x128.Idx → EReal) (ix2 0 l) = (V c main_v40 : S1x128.Idx → EReal) (ix2 0 l) := by
    show (V c main_v40 : S1x128.Idx → EReal) (((cfg2.win 2).blk t).view.emb (ix2 0 l)) = _
    refine congrArg _ (funext fun a => Fin.ext ?_)
    match a with
    | ⟨0, _⟩ => show win2_2.index t (0 : Fin 2) * 1 + 1 * (0 : Fin 1).val = (0 : Fin 1).val; simp [e5]
    | ⟨1, _⟩ => show win2_2.index t (1 : Fin 2) * 128 + 1 * l.val = l.val; omega
  have hg : (iblk2 V c 3 t : S1x128.Idx → EReal) (ix2 0 l) = (V c main_v41 : S1x128.Idx → EReal) (ix2 0 l) := by
    show (V c main_v41 : S1x128.Idx → EReal) (((cfg2.win 3).blk t).view.emb (ix2 0 l)) = _
    refine congrArg _ (funext fun a => Fin.ext ?_)
    match a with
    | ⟨0, _⟩ => show win2_3.index t (0 : Fin 2) * 1 + 1 * (0 : Fin 1).val = (0 : Fin 1).val; simp [e7]
    | ⟨1, _⟩ => show win2_3.index t (1 : Fin 2) * 128 + 1 * l.val = l.val; omega
  have hb : (iblk2 V c 4 t : S1x128.Idx → EReal) (ix2 0 l) = (V c main_v42 : S1x128.Idx → EReal) (ix2 0 l) := by
    show (V c main_v42 : S1x128.Idx → EReal) (((cfg2.win 4).blk t).view.emb (ix2 0 l)) = _
    refine congrArg _ (funext fun a => Fin.ext ?_)
    match a with
    | ⟨0, _⟩ => show win2_4.index t (0 : Fin 2) * 1 + 1 * (0 : Fin 1).val = (0 : Fin 1).val; simp [e9]
    | ⟨1, _⟩ => show win2_4.index t (1 : Fin 2) * 128 + 1 * l.val = l.val; omega
  rw [hx, hm, hv, hg, hb, hcol]

theorem mem_block2_5 (t : Fin cfg2.N) (i : S262144x128.Idx) :
    i ∈ ((cfg2.win 5).blk t).view.set ↔ ∀ a : Fin 2, win2_5.index t a * S8192x128.size a ≤ (i a).val ∧ (i a).val < win2_5.index t a * S8192x128.size a + S8192x128.size a := by
  show i ∈ ((View.whole main_v43).slice (win2_5.rect t)).set ↔ _
  rw [View.set_slice_whole, Rect.mem_set_unit]
  exact Iff.rfl

theorem blocks_cover2_5 (i : S262144x128.Idx) :
    ∃ t : Fin cfg2.N, (cfg2.win 5).flush t = true ∧ i ∈ ((cfg2.win 5).blk t).view.set := by
  have hi0 : (i 0).val < 262144 := (i 0).isLt
  have hi1 : (i 1).val < 128 := (i 1).isLt
  obtain ⟨t, ht⟩ := index_onto2 ⟨(i 0).val / 8192, by omega⟩
  have q0 : win2_5.index t (0 : Fin 2) = (i 0).val / 8192 := congrFun ht 0
  have q1 : win2_5.index t (1 : Fin 2) = 0 := congrFun ht 1
  refine ⟨t, flush2_5 t, ?_⟩
  rw [mem_block2_5]
  intro a
  match a with
  | ⟨0, _⟩ => show win2_5.index t (0 : Fin 2) * 8192 ≤ (i 0).val ∧ (i 0).val < win2_5.index t (0 : Fin 2) * 8192 + 8192; omega
  | ⟨1, _⟩ => show win2_5.index t (1 : Fin 2) * 128 ≤ (i 1).val ∧ (i 1).val < win2_5.index t (1 : Fin 2) * 128 + 128; omega

theorem arrAt2_5_eq (c : Dev nD) :
    (dat2 V c).arrAt 5 cfg2.N = normClamp (V c main_v21) (V c main_v39) (V c main_v40) (V c main_v41) (V c main_v42) :=
  (dat2 V c).arrAt_eq_of_cover 5 _ (fun t _ => flushed2_5_eq V c t) blocks_cover2_5

theorem arrAt2_5_apply (c : Dev nD) (r : Fin 262144) (l : Fin 128) :
    res2 V c (ix2 r l)
      = max ((((x2 V c (ix2 r l) - mean2 V c (ix2 0 l)) * Ideal.rsqrt (var2 V c (ix2 0 l) + Ideal.ofBits .f32 0x3727C5AC#32))
          * gamma2 V c (ix2 0 l)) + beta2 V c (ix2 0 l)) 0 := by
  show (dat2 V c).arrAt 5 cfg2.N (ix2 r l) = _
  rw [arrAt2_5_eq]; rfl

end Cert.KernelIdeal.Hand

end
-- ==== Proof.KI.ValBn.lean ====
import proofs.«428655_j7868380086734_3_alg».proof.Proof.KI.Run
import proofs.«428655_j7868380086734_3_alg».proof.Proof.KI.Sum1
import proofs.«428655_j7868380086734_3_alg».proof.Proof.KI.Arr2
import proofs.«428655_j7868380086734_3_alg».proof.Proof.SpecFacts
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

section Layout
variable {α : Type}

theorem shapeCast_pack_apply (x : (⟨2, ![524288, 64]⟩ : Shape).Idx → α)
    (h : (⟨2, ![524288, 64]⟩ : Shape).ShapeCasts ⟨2, ![262144, 128]⟩) (r : Fin 262144) (l : Fin 128) :
    shapeCast ⟨2, ![262144, 128]⟩ x h (ix2 r l)
      = x (ix2 (⟨2 * r.val + l.val / 64, by omega⟩ : Fin 524288) (⟨l.val % 64, by omega⟩ : Fin 64)) :=
  shapeCast_apply x h _ _ (by
    rw [Shape.rowMajor_val_two, Shape.rowMajor_val_two]
    show (2 * r.val + l.val / 64) * 64 + l.val % 64 = r.val * 128 + l.val
    omega)

theorem shapeCast_unpack_apply (y : (⟨2, ![262144, 128]⟩ : Shape).Idx → α)
    (h : (⟨2, ![262144, 128]⟩ : Shape).ShapeCasts ⟨2, ![524288, 64]⟩) (n : Fin 524288) (c : Fin 64) :
    shapeCast ⟨2, ![524288, 64]⟩ y h (ix2 n c)
      = y (ix2 (⟨n.val / 2, by omega⟩ : Fin 262144) (⟨n.val % 2 * 64 + c.val, by omega⟩ : Fin 128)) :=
  shapeCast_apply y h _ _ (by
    rw [Shape.rowMajor_val_two, Shape.rowMajor_val_two]
    show n.val / 2 * 128 + (n.val % 2 * 64 + c.val) = n.val * 64 + c.val
    omega)

theorem concatenate_twice_apply (v : (⟨2, ![1, 64]⟩ : Shape).Idx → α)
    (h : Shape.Concatenates [(⟨2, ![1, 64]⟩ : Shape), ⟨2, ![1, 64]⟩] ⟨2, ![1, 128]⟩ 1) (l : Fin 128) :
    concatenate ⟨2, ![1, 128]⟩ 1 [⟨⟨2, ![1, 64]⟩, v⟩, ⟨⟨2, ![1, 64]⟩, v⟩] h (ix2 0 l)
      = v (ix2 0 (⟨l.val % 64, by omega⟩ : Fin 64)) := by
  by_cases hl : l.val < 64
  · refine concatenate_pair_apply_left 1 v v h (ix2 0 l) rfl _ (fun b => ?_)
    match b with
    | ⟨0, _⟩ => rfl
    | ⟨1, _⟩ => show l.val % 64 = l.val; omega
  · refine concatenate_pair_apply_right 1 v v h (ix2 0 l) rfl rfl _ (fun b hb => ?_) ?_
    · match b with
      | ⟨0, _⟩ => rfl
      | ⟨1, _⟩ => exact absurd rfl hb
    · show l.val % 64 + 64 = l.val; omega

end Layout

variable (m : (ℓ : Loc nD τ sig) → Buf (Elt Ideal) ℓ)

abbrev accA (d : Dev nD) : S524288x64.Idx → EReal := V3 m d main_v20
abbrev packA (d : Dev nD) : S262144x128.Idx → EReal := V3 m d main_v21
abbrev sumRow (d : Dev nD) : S1x128.Idx → EReal := W4 m d (Proc.devRef .tc main_v22_0)
abbrev sqRow (d : Dev nD) : S1x128.Idx → EReal := W4 m d (Proc.devRef .tc main_v22_1)
abbrev meanRow (d : Dev nD) : S1x64.Idx → EReal := V5 m d main_v30
abbrev varRow (d : Dev nD) : S1x64.Idx → EReal := V5 m d main_v36
abbrev gammaA (d : Dev nD) : S64.Idx → EReal := m ((d : Thread nD τ).loc main_arg2)
abbrev betaA (d : Dev nD) : S64.Idx → EReal := m ((d : Thread nD τ).loc main_arg3)
abbrev outPacked (d : Dev nD) : S262144x128.Idx → EReal := W6 m d (Proc.devRef .tc main_v43)
abbrev outA (d : Dev nD) : S524288x64.Idx → EReal := W7 m d (Proc.devRef .tc main_v44)

theorem packA_eq (d : Dev nD) :
    packA m d = fun i => shapeCast S262144x128 (accA m d) shapeCasts_S524288x64_S262144x128 i := by
  show StableHlo.after hostOps1 (W2 m d) (Proc.devRef .tc main_v21)
    = fun i => shapeCast S262144x128 (StableHlo.after hostOps1 (W2 m d) (Proc.devRef .tc main_v20)) shapeCasts_S524288x64_S262144x128 i
  simp only [hostOps1, StableHlo.after_cons, StableHlo.after_nil]
  rw [StableHlo.reshape_result, StableHlo.reshape_result_ne]
  · rfl
  · decide

theorem packA_apply (d : Dev nD) (r : Fin 262144) (l : Fin 128) :
    packA m d (ix2 r l)
      = accA m d (ix2 (⟨2 * r.val + l.val / 64, by omega⟩ : Fin 524288) (⟨l.val % 64, by omega⟩ : Fin 64)) := by
  rw [packA_eq]
  exact shapeCast_pack_apply (accA m d) _ r l

theorem W4_v21 (d : Dev nD) : W4 m d (Proc.devRef .tc main_v21) = W3 m d (Proc.devRef .tc main_v21) := by
  have h := W4_arr m d 0
  rw [Dat.arrAt_in (dat := dat1 (V3 m) d) 0 rfl cfg1.N] at h
  exact h

theorem V5_v21 (d : Dev nD) : (V5 m d main_v21 : S262144x128.Idx → EReal) = packA m d :=
  (StableHlo.after_of_writes_sub hostOps2 _ hostOps2_writes (by decide)).trans (W4_v21 m d)

theorem W4_arg (d : Dev nD) (r : Ref sig .tc)
    (h0 : ∀ w, Pipeline.arrRef spec0 w ≠ r) (h1 : ∀ w, Pipeline.arrRef spec1 w ≠ r)
    (hw0 : r ∉ hostOps0_W) (hw1 : r ∉ hostOps1_W) :
    W4 m d (Proc.devRef .tc r) = m ((d : Thread nD τ).loc r) :=
  calc W4 m d (Proc.devRef .tc r)
    _ = W3 m d (Proc.devRef .tc r) := W4_of_ne m d r h1
    _ = W2 m d (Proc.devRef .tc r) := StableHlo.after_of_writes_sub hostOps1 _ hostOps1_writes hw1
    _ = W1 m d (Proc.devRef .tc r) := W2_of_ne m d r h0
    _ = W0 m d (Proc.devRef .tc r) := StableHlo.after_of_writes_sub hostOps0 _ hostOps0_writes hw0
    _ = m ((d : Thread nD τ).loc r) := rfl

theorem meanRow_apply (d : Dev nD) (c : Fin 64) :
    meanRow m d (ix2 0 c)
      = Ideal.div (sumRow m d (ix2 0 (⟨c.val, by omega⟩ : Fin 128)) + sumRow m d (ix2 0 (⟨64 + c.val, by omega⟩ : Fin 128)))
          Cert.Spec.Nf := by
  show (StableHlo.after hostOps2 (W4 m d) (Proc.devRef .tc main_v30) : S1x64.Idx → EReal) (ix2 0 c) = _
  after_results
  show Ideal.div (extractStridedSlice S1x64 ![0, 0] (sumRow m d) slices_S1x128_S1x64_0_0 (ix2 0 c)
      + extractStridedSlice S1x64 ![0, 64] (sumRow m d) slices_S1x128_S1x64_0_64 (ix2 0 c)) (Ideal.ofBits .f32 0x49000000#32) = _
  rw [slice2_axis1_apply 0 (sumRow m d) _ 0 c (⟨c.val, by omega⟩ : Fin 128) (by simp),
    slice2_axis1_apply 64 (sumRow m d) _ 0 c (⟨64 + c.val, by omega⟩ : Fin 128) rfl]
  rfl

theorem ix1_congr {n : Nat} {a a' : Fin n} (h : a.val = a'.val) : ix1 a = ix1 a' := by rw [Fin.ext h]

theorem ix2_congr {n0 n1 : Nat} {a a' : Fin n0} {b b' : Fin n1} (ha : a.val = a'.val) (hb : b.val = b'.val) :
    ix2 a b = ix2 a' b' := by rw [Fin.ext ha, Fin.ext hb]

theorem packA_at (d : Dev nD) (r : Fin 262144) (l : Fin 128) (n : Fin 524288) (c : Fin 64)
    (hn : n.val = 2 * r.val + l.val / 64) (hc : c.val = l.val % 64) :
    packA m d (ix2 r l) = accA m d (ix2 n c) := by
  rw [packA_apply]; exact congrArg (accA m d) (ix2_congr hn.symm hc.symm)

theorem varRow_apply (d : Dev nD) (c : Fin 64) :
    varRow m d (ix2 0 c)
      = max (Ideal.div (sqRow m d (ix2 0 (⟨c.val, by omega⟩ : Fin 128)) + sqRow m d (ix2 0 (⟨64 + c.val, by omega⟩ : Fin 128)))
          Cert.Spec.Nf - meanRow m d (ix2 0 c) * meanRow m d (ix2 0 c)) 0 := by
  rw [meanRow_apply]
  show (StableHlo.after hostOps2 (W4 m d) (Proc.devRef .tc main_v36) : S1x64.Idx → EReal) (ix2 0 c) = _
  after_results
  show max (Ideal.div (extractStridedSlice S1x64 ![0, 0] (sqRow m d) slices_S1x128_S1x64_0_0 (ix2 0 c)
        + extractStridedSlice S1x64 ![0, 64] (sqRow m d) slices_S1x128_S1x64_0_64 (ix2 0 c)) (Ideal.ofBits .f32 0x49000000#32)
      - Ideal.div (extractStridedSlice S1x64 ![0, 0] (sumRow m d) slices_S1x128_S1x64_0_0 (ix2 0 c)
          + extractStridedSlice S1x64 ![0, 64] (sumRow m d) slices_S1x128_S1x64_0_64 (ix2 0 c)) (Ideal.ofBits .f32 0x49000000#32)
        * Ideal.div (extractStridedSlice S1x64 ![0, 0] (sumRow m d) slices_S1x128_S1x64_0_0 (ix2 0 c)
          + extractStridedSlice S1x64 ![0, 64] (sumRow m d) slices_S1x128_S1x64_0_64 (ix2 0 c)) (Ideal.ofBits .f32 0x49000000#32))
      (Ideal.ofBits .f32 0x00000000#32) = _
  rw [slice2_axis1_apply 0 (sqRow m d) _ 0 c (⟨c.val, by omega⟩ : Fin 128) (by simp),
    slice2_axis1_apply 64 (sqRow m d) _ 0 c (⟨64 + c.val, by omega⟩ : Fin 128) rfl,
    slice2_axis1_apply 0 (sumRow m d) _ 0 c (⟨c.val, by omega⟩ : Fin 128) (by simp),
    slice2_axis1_apply 64 (sumRow m d) _ 0 c (⟨64 + c.val, by omega⟩ : Fin 128) rfl,
    Ideal.ofBits_zero_f32]
  rfl

theorem meanLanes_eq (d : Dev nD) :
    (V5 m d main_v39 : S1x128.Idx → EReal)
      = concatenate S1x128 1 [⟨S1x64, meanRow m d⟩, ⟨S1x64, meanRow m d⟩] concatenates_S1x64_S1x64_S1x128_d1 := by
  show StableHlo.after hostOps2 (W4 m d) (Proc.devRef .tc main_v39)
    = concatenate S1x128 1 [⟨S1x64, StableHlo.after hostOps2 (W4 m d) (Proc.devRef .tc main_v30)⟩,
        ⟨S1x64, StableHlo.after hostOps2 (W4 m d) (Proc.devRef .tc main_v30)⟩] concatenates_S1x64_S1x64_S1x128_d1
  after_results <;> rfl

theorem varLanes_eq (d : Dev nD) :
    (V5 m d main_v40 : S1x128.Idx → EReal)
      = concatenate S1x128 1 [⟨S1x64, varRow m d⟩, ⟨S1x64, varRow m d⟩] concatenates_S1x64_S1x64_S1x128_d1 := by
  show StableHlo.after hostOps2 (W4 m d) (Proc.devRef .tc main_v40)
    = concatenate S1x128 1 [⟨S1x64, StableHlo.after hostOps2 (W4 m d) (Proc.devRef .tc main_v36)⟩,
        ⟨S1x64, StableHlo.after hostOps2 (W4 m d) (Proc.devRef .tc main_v36)⟩] concatenates_S1x64_S1x64_S1x128_d1
  after_results <;> rfl

theorem gammaLanes_eq (d : Dev nD) :
    (V5 m d main_v41 : S1x128.Idx → EReal)
      = concatenate S1x128 1 [⟨S1x64, fun i => shapeCast S1x64 (gammaA m d) shapeCasts_S64_S1x64 i⟩,
          ⟨S1x64, fun i => shapeCast S1x64 (gammaA m d) shapeCasts_S64_S1x64 i⟩] concatenates_S1x64_S1x64_S1x128_d1 := by
  rw [show gammaA m d = W4 m d (Proc.devRef .tc main_arg2) from
    (W4_arg m d main_arg2 (by decide) (by decide) (by decide) (by decide)).symm]
  show StableHlo.after hostOps2 (W4 m d) (Proc.devRef .tc main_v41) = _
  after_results <;> rfl

theorem betaLanes_eq (d : Dev nD) :
    (V5 m d main_v42 : S1x128.Idx → EReal)
      = concatenate S1x128 1 [⟨S1x64, fun i => shapeCast S1x64 (betaA m d) shapeCasts_S64_S1x64 i⟩,
          ⟨S1x64, fun i => shapeCast S1x64 (betaA m d) shapeCasts_S64_S1x64 i⟩] concatenates_S1x64_S1x64_S1x128_d1 := by
  rw [show betaA m d = W4 m d (Proc.devRef .tc main_arg3) from
    (W4_arg m d main_arg3 (by decide) (by decide) (by decide) (by decide)).symm]
  show StableHlo.after hostOps2 (W4 m d) (Proc.devRef .tc main_v42) = _
  after_results <;> rfl

theorem meanLanes_apply (d : Dev nD) (l : Fin 128) (k : Fin 64) (hk : k.val = l.val % 64) :
    mean2 (V5 m) d (ix2 0 l) = meanRow m d (ix2 0 k) := by
  show (V5 m d main_v39 : S1x128.Idx → EReal) (ix2 0 l) = _
  rw [meanLanes_eq, concatenate_twice_apply]; exact congrArg (meanRow m d) (ix2_congr rfl hk.symm)

theorem varLanes_apply (d : Dev nD) (l : Fin 128) (k : Fin 64) (hk : k.val = l.val % 64) :
    var2 (V5 m) d (ix2 0 l) = varRow m d (ix2 0 k) := by
  show (V5 m d main_v40 : S1x128.Idx → EReal) (ix2 0 l) = _
  rw [varLanes_eq, concatenate_twice_apply]; exact congrArg (varRow m d) (ix2_congr rfl hk.symm)

theorem gammaLanes_apply (d : Dev nD) (l : Fin 128) (k : Fin 64) (hk : k.val = l.val % 64) :
    gamma2 (V5 m) d (ix2 0 l) = gammaA m d (ix1 k) := by
  show (V5 m d main_v41 : S1x128.Idx → EReal) (ix2 0 l) = _
  rw [gammaLanes_eq, concatenate_twice_apply]
  show shapeCast S1x64 (gammaA m d) shapeCasts_S64_S1x64 (ix2 0 _) = _
  rw [shapeCast_a_1a_apply]; exact congrArg (gammaA m d) (ix1_congr hk.symm)

theorem betaLanes_apply (d : Dev nD) (l : Fin 128) (k : Fin 64) (hk : k.val = l.val % 64) :
    beta2 (V5 m) d (ix2 0 l) = betaA m d (ix1 k) := by
  show (V5 m d main_v42 : S1x128.Idx → EReal) (ix2 0 l) = _
  rw [betaLanes_eq, concatenate_twice_apply]
  show shapeCast S1x64 (betaA m d) shapeCasts_S64_S1x64 (ix2 0 _) = _
  rw [shapeCast_a_1a_apply]; exact congrArg (betaA m d) (ix1_congr hk.symm)

theorem outPacked_apply (d : Dev nD) (r : Fin 262144) (l : Fin 128) (k : Fin 64) (hk : k.val = l.val % 64) :
    outPacked m d (ix2 r l)
      = max ((((packA m d (ix2 r l) - meanRow m d (ix2 0 k)) * Ideal.rsqrt (varRow m d (ix2 0 k) + Cert.Spec.eps))
          * gammaA m d (ix1 k)) + betaA m d (ix1 k)) 0 := by
  have h : outPacked m d = res2 (V5 m) d := W6_arr m d 5
  rw [h, arrAt2_5_apply (V5 m) d r l]
  rw [show x2 (V5 m) d = packA m d from V5_v21 m d, meanLanes_apply m d l k hk, varLanes_apply m d l k hk, gammaLanes_apply m d l k hk, betaLanes_apply m d l k hk]
  rfl

theorem outA_apply (d : Dev nD) (n : Fin 524288) (c : Fin 64) (r : Fin 262144) (l : Fin 128)
    (hr : r.val = n.val / 2) (hl : l.val = n.val % 2 * 64 + c.val) :
    outA m d (ix2 n c) = outPacked m d (ix2 r l) := by
  have e : outA m d = fun i => shapeCast S524288x64 (outPacked m d) shapeCasts_S262144x128_S524288x64 i := by
    show StableHlo.after hostOps3 (W6 m d) (Proc.devRef .tc main_v44) = _
    simp only [hostOps3, StableHlo.after_cons, StableHlo.after_nil]
    rw [StableHlo.reshape_result]
    rfl
  rw [e]
  exact (shapeCast_unpack_apply (outPacked m d) _ n c).trans (congrArg (outPacked m d) (ix2_congr hr.symm hl.symm))

abbrev accOf (d : Dev nD) : Fin 524288 → Fin 64 → EReal := fun n c => accA m d (ix2 n c)

theorem sumRow_apply (d : Dev nD) (l : Fin 128) : sumRow m d (ix2 0 l) = ∑ r : Fin 262144, packA m d (ix2 r l) := by
  have h : sumRow m d = (dat1 (V3 m) d).arrAt 1 cfg1.N := W4_arr m d 1
  rw [h]; exact arr1_1_sum (V3 m) d l

theorem sqRow_apply (d : Dev nD) (l : Fin 128) :
    sqRow m d (ix2 0 l) = ∑ r : Fin 262144, packA m d (ix2 r l) * packA m d (ix2 r l) := by
  have h : sqRow m d = (dat1 (V3 m) d).arrAt 2 cfg1.N := W4_arr m d 2
  rw [h]; exact arr1_2_sumsq (V3 m) d l

theorem colSum (d : Dev nD) (c : Fin 64) :
    sumRow m d (ix2 0 (⟨c.val, by omega⟩ : Fin 128)) + sumRow m d (ix2 0 (⟨64 + c.val, by omega⟩ : Fin 128))
      = ∑ n : Fin 524288, accOf m d n c := by
  rw [sumRow_apply, sumRow_apply, Cert.BnAlgebra.sum_pairs 262144 (fun n : Fin 524288 => accOf m d n c)]
  refine congrArg₂ (fun x y : EReal => x + y) ?_ ?_
  · exact Finset.sum_congr rfl fun r _ => packA_at m d r _ _ c
      (by show 2 * r.val = 2 * r.val + c.val / 64; omega) (by show c.val = c.val % 64; omega)
  · exact Finset.sum_congr rfl fun r _ => packA_at m d r _ _ c
      (by show 2 * r.val + 1 = 2 * r.val + (64 + c.val) / 64; omega) (by show c.val = (64 + c.val) % 64; omega)

theorem colSq (d : Dev nD) (c : Fin 64) :
    sqRow m d (ix2 0 (⟨c.val, by omega⟩ : Fin 128)) + sqRow m d (ix2 0 (⟨64 + c.val, by omega⟩ : Fin 128))
      = ∑ n : Fin 524288, accOf m d n c * accOf m d n c := by
  rw [sqRow_apply, sqRow_apply, Cert.BnAlgebra.sum_pairs 262144 (fun n : Fin 524288 => accOf m d n c * accOf m d n c)]
  refine congrArg₂ (fun x y : EReal => x + y) ?_ ?_
  · refine Finset.sum_congr rfl fun r _ => ?_
    rw [packA_at m d r _ ⟨2 * r.val, by omega⟩ c (by show 2 * r.val = 2 * r.val + c.val / 64; omega) (by show c.val = c.val % 64; omega)]
  · refine Finset.sum_congr rfl fun r _ => ?_
    rw [packA_at m d r _ ⟨2 * r.val + 1, by omega⟩ c (by show 2 * r.val + 1 = 2 * r.val + (64 + c.val) / 64; omega)
      (by show c.val = (64 + c.val) % 64; omega)]

theorem meanRow_eq (d : Dev nD) (c : Fin 64) : meanRow m d (ix2 0 c) = Cert.Spec.mean (accOf m d) c := by
  rw [meanRow_apply, colSum m d c]; rfl

theorem varRow_eq (d : Dev nD) (c : Fin 64) : varRow m d (ix2 0 c) = Cert.Spec.varSq (accOf m d) c := by
  rw [varRow_apply, colSq m d c, meanRow_eq m d c]; rfl

theorem result_apply (d : Dev nD) (n : Fin 524288) (c : Fin 64) :
    outA m d (ix2 n c)
      = Cert.Spec.bn (Cert.Spec.varSq (accOf m d)) (accOf m d) (fun c => gammaA m d (ix1 c)) (fun c => betaA m d (ix1 c)) n c := by
  rw [outA_apply m d n c ⟨n.val / 2, by omega⟩ ⟨n.val % 2 * 64 + c.val, by omega⟩ rfl rfl,
    outPacked_apply m d _ _ c (by show c.val = (n.val % 2 * 64 + c.val) % 64; omega),
    packA_at m d _ _ n c (by show n.val = 2 * (n.val / 2) + (n.val % 2 * 64 + c.val) / 64; omega)
      (by show c.val = (n.val % 2 * 64 + c.val) % 64; omega),
    meanRow_eq m d c, varRow_eq m d c]
  rfl

end Cert.KernelIdeal.Hand

end
-- ==== Proof.R.IdxTrip.lean ====
import proofs.«428655_j7868380086734_3_alg».proof.Proof.R.Vals
import proofs.«428655_j7868380086734_3_alg».proof.Proof.Spec
import proofs.«428655_j7868380086734_3_alg».proof.Proof.LibRowGather
import proofs.«428655_j7868380086734_3_alg».proof.Proof.LibRowScatterAdd
import proofs.«428655_j7868380086734_3_alg».proof.Proof.LibOneAxisContraction
import Idealize.ShloMosaic.Lib.IdealHost
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.ValueIdx
open scoped BigOperators

abbrev scatterRec := scatter_S524288x64_S131072x1_S131072x64_1_0_0_1
abbrev gatherRec := gather_S524288x64_S131072x1_S131072x64_1_0_n_n_0_1_164
abbrev dotRec := dot_S131072x64_S64x64_S131072x64_1_0_0_1_n_n

theorem scatterRec_eq : scatterRec
    = Cert.LibRows.rowScatterDims 524288 131072 64 scatter_S524288x64_S131072x1_S131072x64_1_0_0_1_wf := rfl

theorem gatherRec_eq : gatherRec
    = Cert.LibRows.rowGatherDims 524288 131072 64 gather_S524288x64_S131072x1_S131072x64_1_0_n_n_0_1_164_wf := rfl

theorem cmpi_apply {s : Shape} {w : ℕ} (p : CmpIPredicate) (a b : IVec s w) (i : s.Idx) :
    cmpi p a b i = IntOp.cmpi p (a i) (b i) := rfl

theorem addi_apply {s : Shape} {w : ℕ} (a b : IVec s w) (i : s.Idx) : addi a b i = IntOp.addi (a i) (b i) := rfl

theorem tableRow_apply (k : Fin 27) (h4 : S27x131072.Slices ![k.val, 0] S1x131072) (tbl : IVec S27x131072 32)
    (j : Fin 131072) :
    (shapeCast S131072 (extractStridedSlice S1x131072 ![k.val, 0] tbl h4) shapeCasts_S1x131072_S131072) (ix1 j) = tbl (ix2 k j) :=
  (shapeCast_1a_a_apply _ _ j).trans (slice2_axis0_apply k.val tbl h4 (0 : Fin 1) j k rfl)

theorem wordCol_apply (k : Fin 27) (h4 : S27x131072.Slices ![k.val, 0] S1x131072) (tbl : IVec S27x131072 32)
    (j : Fin 131072) (u : Fin 1) :
    (broadcastInDim S131072x1 ![0] bcast_S131072_S131072x1_0
      (select
        (cmpi .slt (shapeCast S131072 (extractStridedSlice S1x131072 ![k.val, 0] tbl h4) shapeCasts_S1x131072_S131072)
          (broadcastInDim S131072 ![] bcast_S_S131072 (constantI S_ 32 0#32)))
        (addi (shapeCast S131072 (extractStridedSlice S1x131072 ![k.val, 0] tbl h4) shapeCasts_S1x131072_S131072)
          (broadcastInDim S131072 ![] bcast_S_S131072 (constantI S_ 32 524288#32)))
        (shapeCast S131072 (extractStridedSlice S1x131072 ![k.val, 0] tbl h4) shapeCasts_S1x131072_S131072))) (ix2 j u)
      = Cert.Spec.wrap (tbl (ix2 k j)) := by
  refine (broadcastInDim_apply _ _ _ _ (ix1 j) (fun a => by
    match a with
    | ⟨0, _⟩ => rfl)).trans ?_
  rw [select_apply, cmpi_apply, addi_apply, tableRow_apply k h4 tbl j, broadcastInDim_scalar_apply,
    broadcastInDim_scalar_apply, constantI_apply, constantI_apply]
  rfl

theorem weightSlice_apply (k : Fin 27) (hW : S27x64x64.Slices ![k.val, 0, 0] S1x64x64) (W : FVec Ideal S27x64x64 .f32)
    (d c : Fin 64) :
    shapeCast S64x64 (extractStridedSlice S1x64x64 ![k.val, 0, 0] W hW) shapeCasts_S1x64x64_S64x64 (ix2 d c)
      = W (ix3 k d c) :=
  (shapeCast_1ab_ab_apply _ _ d c).trans (extractStridedSlice_apply _ _ hW _ (ix3 k d c) (fun a => by
    match a with
    | ⟨0, _⟩ => rfl
    | ⟨1, _⟩ => exact (Nat.zero_add _).symm
    | ⟨2, _⟩ => exact (Nat.zero_add _).symm))

theorem dotRec_lhs_0 (j : S131072x64.Idx) (q : dotRec.contr.Idx) : (dotRec.lhsIdx j q 0 : ℕ) = j 0 := by
  simp [DotDims.lhsIdx, dotRec, dot_S131072x64_S64x64_S131072x64_1_0_0_1_n_n]; rfl
theorem dotRec_lhs_1 (j : S131072x64.Idx) (q : dotRec.contr.Idx) : (dotRec.lhsIdx j q 1 : ℕ) = q ⟨0, by decide⟩ := by
  simp [DotDims.lhsIdx, dotRec, dot_S131072x64_S64x64_S131072x64_1_0_0_1_n_n]; rfl
theorem dotRec_rhs_0 (j : S131072x64.Idx) (q : dotRec.contr.Idx) : (dotRec.rhsIdx j q 0 : ℕ) = q ⟨0, by decide⟩ := by
  simp [DotDims.rhsIdx, dotRec, dot_S131072x64_S64x64_S131072x64_1_0_0_1_n_n]; rfl
theorem dotRec_rhs_1 (j : S131072x64.Idx) (q : dotRec.contr.Idx) : (dotRec.rhsIdx j q 1 : ℕ) = j 1 := by
  simp [DotDims.rhsIdx, dotRec, dot_S131072x64_S64x64_S131072x64_1_0_0_1_n_n]; rfl

theorem dotRec_contr_rank : dotRec.contr.rank = 1 := by decide
theorem dotRec_contr_size : dotRec.contr.size ⟨0, by rw [dotRec_contr_rank]; exact Nat.one_pos⟩ = 64 := by decide

theorem dot_apply (A : FVec Ideal S131072x64 .f32) (B : FVec Ideal S64x64 .f32) (j : Fin 131072) (c : Fin 64) :
    Host.dotGeneral dotRec none A B (ix2 j c) = ∑ d : Fin 64, A (ix2 j d) * B (ix2 d c) := by
  have hr : dotRec.contr.rank = 1 := dotRec_contr_rank
  have hs : dotRec.contr.size ⟨0, by omega⟩ = 64 := dotRec_contr_size
  refine Cert.Dots.dotGeneral_apply_of dotRec 64 hr hs none _ A B (ix2 j c) (fun d => ix2 j d) (fun d => ix2 d c)
    (fun d => ?_) (fun d => ?_)
  · funext a
    refine Fin.ext ?_
    match a with
    | ⟨0, _⟩ => exact dotRec_lhs_0 _ _
    | ⟨1, _⟩ => exact (dotRec_lhs_1 _ _).trans (contrEquiv1_symm_val dotRec 64 hr hs d)
  · funext a
    refine Fin.ext ?_
    match a with
    | ⟨0, _⟩ => exact (dotRec_rhs_0 _ _).trans (contrEquiv1_symm_val dotRec 64 hr hs d)
    | ⟨1, _⟩ => exact dotRec_rhs_1 _ _

theorem update_apply (k : Fin 27) (h4 : S27x131072.Slices ![k.val, 0] S1x131072)
    (hW : S27x64x64.Slices ![k.val, 0, 0] S1x64x64) (x : FVec Ideal S524288x64 .f32)
    (W : FVec Ideal S27x64x64 .f32) (ii : IVec S27x131072 32) (j : Fin 131072) (c : Fin 64) :
    Host.dotGeneral dot_S131072x64_S64x64_S131072x64_1_0_0_1_n_n none
      (Host.gather gather_S524288x64_S131072x1_S131072x64_1_0_n_n_0_1_164 x
        (broadcastInDim S131072x1 ![0] bcast_S131072_S131072x1_0
      (select
        (cmpi .slt (shapeCast S131072 (extractStridedSlice S1x131072 ![k.val, 0] ii h4) shapeCasts_S1x131072_S131072)
          (broadcastInDim S131072 ![] bcast_S_S131072 (constantI S_ 32 0#32)))
        (addi (shapeCast S131072 (extractStridedSlice S1x131072 ![k.val, 0] ii h4) shapeCasts_S1x131072_S131072)
          (broadcastInDim S131072 ![] bcast_S_S131072 (constantI S_ 32 524288#32)))
        (shapeCast S131072 (extractStridedSlice S1x131072 ![k.val, 0] ii h4) shapeCasts_S1x131072_S131072))))
      (shapeCast S64x64 (extractStridedSlice S1x64x64 ![k.val, 0, 0] W hW) shapeCasts_S1x64x64_S64x64) (ix2 j c)
      = Cert.Spec.contrib x W ii k j c := by
  refine (dot_apply _ _ j c).trans ?_
  unfold Cert.Spec.contrib
  refine Finset.sum_congr rfl fun d _ => ?_
  rw [weightSlice_apply k hW W d c]
  refine congrArg (fun s => s * W (ix3 k d c)) ?_
  refine (Cert.LibRows.rowGather_apply (N := 524288) (M := 131072) (C := 64) (by norm_num)
    gather_S524288x64_S131072x1_S131072x64_1_0_n_n_0_1_164_wf x _ j d).trans ?_
  have hw := wordCol_apply k h4 ii j ⟨0, Nat.one_pos⟩
  refine congrArg (fun r : Fin 524288 => x (ix2 r d)) (Fin.ext ?_)
  exact congrArg (fun v : BitVec 32 => min v.toInt.toNat (524288 - 1)) hw

theorem tripVal_apply (k : Fin 27) (h4 : S27x131072.Slices ![k.val, 0] S1x131072)
    (hW : S27x64x64.Slices ![k.val, 0, 0] S1x64x64) (acc x : FVec Ideal S524288x64 .f32)
    (W : FVec Ideal S27x64x64 .f32) (ii oi : IVec S27x131072 32) (n : Fin 524288) (c : Fin 64) :
    tripVal (F := Ideal) ![k.val, 0] h4 ![k.val, 0, 0] hW acc x W ii oi (ix2 n c)
      = acc (ix2 n c) + ∑ j : Fin 131072,
          if (Cert.Spec.wrap (oi (ix2 k j))).toInt = (n.val : ℤ) then Cert.Spec.contrib x W ii k j c else 0 := by
  unfold tripVal
  refine (Cert.LibRows.host_rowScatterAdd_apply (N := 524288) (M := 131072) (C := 64)
    scatter_S524288x64_S131072x1_S131072x64_1_0_0_1_wf acc _ _ n c).trans ?_
  refine congrArg (fun s => acc (ix2 n c) + s) ?_
  refine Finset.sum_congr rfl fun j _ => ?_
  rw [wordCol_apply k h4 oi j, update_apply k h4 hW x W ii j c]

end Cert.ReferenceIdeal.Hand

end
-- ==== Proof.R.IdxTail.lean ====
import proofs.«428655_j7868380086734_3_alg».proof.Proof.R.Vals
import proofs.«428655_j7868380086734_3_alg».proof.Proof.Spec
import proofs.«428655_j7868380086734_3_alg».proof.Proof.SpecFacts
import Idealize.ShloMosaic.Lib.IdealHost
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.ValueIdx
open scoped BigOperators

section
variable {α : Type}

theorem bcastRows_apply (u : S1x64.Idx → α) (n : Fin 524288) (c : Fin 64) :
    broadcastInDim S524288x64 ![0, 1] bcast_S1x64_S524288x64_0_1 u (ix2 n c) = u (ix2 (0 : Fin 1) c) :=
  broadcastInDim_apply _ _ _ _ _ (fun a => by
    match a with
    | ⟨0, _⟩ => rfl
    | ⟨1, _⟩ => rfl)

theorem bcastVec_apply (v : S64.Idx → α) (u : Fin 1) (c : Fin 64) :
    broadcastInDim S1x64 ![1] bcast_S64_S1x64_1 v (ix2 u c) = v (ix1 c) :=
  broadcastInDim_apply _ _ _ _ _ (fun a => by
    match a with
    | ⟨0, _⟩ => rfl)

end

theorem colSum_apply (X : FVec Ideal S524288x64 .f32) (c : Fin 64) :
    Host.reduceAdd (F := Ideal) X (constant S_ .f32 0x00000000#32) reducesTo_S524288x64_S64_d0 h_S_ (ix1 c)
      = ∑ n : Fin 524288, X (ix2 n c) := by
  have h : S524288x64.Reduces [0] S64 := by decide
  rw [hostReduceAdd_apply, Ideal.hostReduceAdd_single reducesTo_S524288x64_S64_d0 h, constant_apply,
    Cert.Spec.ofBits_zero, zero_add]
  refine Finset.sum_congr rfl fun k _ => congrArg X ?_
  funext a
  match a with
  | ⟨0, _⟩ => rfl
  | ⟨1, _⟩ => rfl

theorem hostRsqrt_apply {s : Shape} (a : FVec Ideal s .f32) (i : s.Idx) : Host.rsqrt a i = Ideal.rsqrt (a i) := rfl

theorem count_sub_zero :
    Ideal.ofBits .f32 0x49000000#32 - FloatOps.sitofp (F := Ideal) .f32 (0#32 : BitVec 32) = Cert.Spec.Nf := by
  show Cert.Spec.Nf - ((((0#32 : BitVec 32).toInt : ℤ) : ℝ) : EReal) = Cert.Spec.Nf
  simp

theorem count_guard : Ideal.cmp .ogt Cert.Spec.Nf 0 = 1#1 := by
  rw [Cert.Spec.Nf_eq]
  have h : (0 : EReal) < ((524288 : ℝ) : EReal) := by exact_mod_cast (by norm_num : (0 : ℝ) < 524288)
  simp [Ideal.cmp, h]

theorem count_apply : (subf (constant (F := Ideal) S_ .f32 0x49000000#32) (sitofp .f32 (constantI S_ 32 0#32))) ix0 = Cert.Spec.Nf := by
  rw [subf_apply, constant_apply, sitofp_apply, constantI_apply]
  exact count_sub_zero

section
variable (acc : FVec Ideal S524288x64 .f32)

theorem meanA_apply (n : Fin 524288) (c : Fin 64) :
    (broadcastInDim S524288x64 ![0, 1] bcast_S1x64_S524288x64_0_1 (broadcastInDim S1x64 ![1] bcast_S64_S1x64_1 (Host.divf (Host.reduceAdd acc (constant S_ .f32 0x00000000#32) reducesTo_S524288x64_S64_d0 h_S_) (broadcastInDim S64 ![] bcast_S_S64 (constant S_ .f32 0x49000000#32))))) (ix2 n c) = Cert.Spec.mean (fun n c => acc (ix2 n c)) c := by
  rw [bcastRows_apply, bcastVec_apply, hostDivf_apply, colSum_apply, broadcastInDim_scalar_apply, constant_apply]
  rfl

theorem meanB_apply (n : Fin 524288) (c : Fin 64) :
    (broadcastInDim S524288x64 ![0, 1] bcast_S1x64_S524288x64_0_1 (Host.divf (broadcastInDim S1x64 ![1] bcast_S64_S1x64_1 (Host.reduceAdd acc (constant S_ .f32 0x00000000#32) reducesTo_S524288x64_S64_d0 h_S_)) (broadcastInDim S1x64 ![] bcast_S_S1x64 (constant S_ .f32 0x49000000#32)))) (ix2 n c) = Cert.Spec.mean (fun n c => acc (ix2 n c)) c := by
  rw [bcastRows_apply, hostDivf_apply, bcastVec_apply, colSum_apply, broadcastInDim_scalar_apply, constant_apply]
  rfl

theorem var_apply (c : Fin 64) :
    (select (broadcastInDim S64 ![] bcast_S_S64 (cmpf .ogt (subf (constant (F := Ideal) S_ .f32 0x49000000#32) (sitofp .f32 (constantI S_ 32 0#32))) (constant S_ .f32 0x00000000#32))) (Host.divf (Host.reduceAdd (mulf (subf acc (broadcastInDim S524288x64 ![0, 1] bcast_S1x64_S524288x64_0_1 (Host.divf (broadcastInDim S1x64 ![1] bcast_S64_S1x64_1 (Host.reduceAdd acc (constant S_ .f32 0x00000000#32) reducesTo_S524288x64_S64_d0 h_S_)) (broadcastInDim S1x64 ![] bcast_S_S1x64 (constant S_ .f32 0x49000000#32))))) (subf acc (broadcastInDim S524288x64 ![0, 1] bcast_S1x64_S524288x64_0_1 (Host.divf (broadcastInDim S1x64 ![1] bcast_S64_S1x64_1 (Host.reduceAdd acc (constant S_ .f32 0x00000000#32) reducesTo_S524288x64_S64_d0 h_S_)) (broadcastInDim S1x64 ![] bcast_S_S1x64 (constant S_ .f32 0x49000000#32)))))) (constant S_ .f32 0x00000000#32) reducesTo_S524288x64_S64_d0 h_S_) (broadcastInDim S64 ![] bcast_S_S64 (subf (constant (F := Ideal) S_ .f32 0x49000000#32) (sitofp .f32 (constantI S_ 32 0#32))))) (broadcastInDim S64 ![] bcast_S_S64 (id (constant S_ .f32 0x7FC00000#32)))) (ix1 c) = Cert.Spec.varDev (fun n c => acc (ix2 n c)) c := by
  rw [select_apply, broadcastInDim_scalar_apply, cmpf_apply, count_apply, constant_apply, Cert.Spec.ofBits_zero,
    Ideal.cmpf_def, count_guard, select_one, hostDivf_apply, colSum_apply, broadcastInDim_scalar_apply, count_apply]
  show Ideal.div _ _ = Ideal.div _ _
  refine congrArg (fun s => Ideal.div s Cert.Spec.Nf) ?_
  refine Finset.sum_congr rfl fun n' _ => ?_
  rw [mulf_apply, subf_apply, meanB_apply]

theorem rstd_apply (n : Fin 524288) (c : Fin 64) :
    (broadcastInDim S524288x64 ![0, 1] bcast_S1x64_S524288x64_0_1 (broadcastInDim S1x64 ![1] bcast_S64_S1x64_1 (Host.rsqrt (addf (select (broadcastInDim S64 ![] bcast_S_S64 (cmpf .ogt (subf (constant (F := Ideal) S_ .f32 0x49000000#32) (sitofp .f32 (constantI S_ 32 0#32))) (constant S_ .f32 0x00000000#32))) (Host.divf (Host.reduceAdd (mulf (subf acc (broadcastInDim S524288x64 ![0, 1] bcast_S1x64_S524288x64_0_1 (Host.divf (broadcastInDim S1x64 ![1] bcast_S64_S1x64_1 (Host.reduceAdd acc (constant S_ .f32 0x00000000#32) reducesTo_S524288x64_S64_d0 h_S_)) (broadcastInDim S1x64 ![] bcast_S_S1x64 (constant S_ .f32 0x49000000#32))))) (subf acc (broadcastInDim S524288x64 ![0, 1] bcast_S1x64_S524288x64_0_1 (Host.divf (broadcastInDim S1x64 ![1] bcast_S64_S1x64_1 (Host.reduceAdd acc (constant S_ .f32 0x00000000#32) reducesTo_S524288x64_S64_d0 h_S_)) (broadcastInDim S1x64 ![] bcast_S_S1x64 (constant S_ .f32 0x49000000#32)))))) (constant S_ .f32 0x00000000#32) reducesTo_S524288x64_S64_d0 h_S_) (broadcastInDim S64 ![] bcast_S_S64 (subf (constant (F := Ideal) S_ .f32 0x49000000#32) (sitofp .f32 (constantI S_ 32 0#32))))) (broadcastInDim S64 ![] bcast_S_S64 (id (constant S_ .f32 0x7FC00000#32)))) (broadcastInDim S64 ![] bcast_S_S64 (constant S_ .f32 0x3727C5AC#32)))))) (ix2 n c) = Ideal.rsqrt (Cert.Spec.varDev (fun n c => acc (ix2 n c)) c + Cert.Spec.eps) := by
  rw [bcastRows_apply, bcastVec_apply, hostRsqrt_apply, addf_apply, var_apply, broadcastInDim_scalar_apply,
    constant_apply]
  rfl

end

theorem tailVal_apply (acc : FVec Ideal S524288x64 .f32) (g b : FVec Ideal S64 .f32) (n : Fin 524288) (c : Fin 64) :
    tailVal (F := Ideal) acc g b (ix2 n c)
      = Cert.Spec.bn (Cert.Spec.varDev fun n c => acc (ix2 n c)) (fun n c => acc (ix2 n c))
          (fun c => g (ix1 c)) (fun c => b (ix1 c)) n c := by
  unfold tailVal
  rw [maximumf_apply, addf_apply, mulf_apply, mulf_apply, subf_apply, meanA_apply, rstd_apply, bcastRows_apply,
    bcastVec_apply, bcastRows_apply, bcastVec_apply, broadcastInDim_scalar_apply, constant_apply,
    Cert.Spec.ofBits_zero]
  rfl

end Cert.ReferenceIdeal.Hand

end
-- ==== Proof.R.Idx.lean ====
import proofs.«428655_j7868380086734_3_alg».proof.Proof.R.IdxTrip
import proofs.«428655_j7868380086734_3_alg».proof.Proof.R.IdxTail
import proofs.«428655_j7868380086734_3_alg».proof.Proof.SpecFacts
import Idealize.ShloMosaic.Lib.IdealHost

noncomputable section

namespace Cert.ReferenceIdeal.Hand

open Cert.ReferenceIdeal Cert.ReferenceIdeal.Gen Idealize.ShloMosaic Idealize.ShloMosaic.ValueIdx
open scoped BigOperators

def tripTerm (x : FVec Ideal S524288x64 .f32) (W : FVec Ideal S27x64x64 .f32) (ii oi : IVec S27x131072 32)
    (n : Fin 524288) (c : Fin 64) (k : Fin 27) : EReal :=
  ∑ j : Fin 131072,
    if (Cert.Spec.wrap (oi (ix2 k j))).toInt = (n.val : ℤ) then Cert.Spec.contrib x W ii k j c else 0

-- Entry `(r, c)` of the accumulator after `n` trips is the sum of the first `n` trips' terms: each trip adds its own.
theorem accVal_apply (x : FVec Ideal S524288x64 .f32) (W : FVec Ideal S27x64x64 .f32) (ii oi : IVec S27x131072 32)
    (r : Fin 524288) (c : Fin 64) : ∀ (n : ℕ) (h : n ≤ 27),
    accVal (F := Ideal) x W ii oi n h (ix2 r c) = ∑ k : Fin n, tripTerm x W ii oi r c ⟨k.val, lt_of_lt_of_le k.isLt h⟩
  | 0, _ => by
    rw [accVal, broadcastInDim_scalar_apply, constant_apply, Cert.Spec.ofBits_zero, Fin.sum_univ_zero]
  | n + 1, h => by
    rw [accVal]
    refine (tripVal_apply ⟨n, h⟩ _ _ _ x W ii oi r c).trans ?_
    rw [accVal_apply x W ii oi r c n (Nat.le_of_succ_le h)]
    exact (Fin.sum_univ_castSucc fun k : Fin (n + 1) => tripTerm x W ii oi r c ⟨k.val, lt_of_lt_of_le k.isLt h⟩).symm

theorem refVal_apply (x : FVec Ideal S524288x64 .f32) (W : FVec Ideal S27x64x64 .f32) (g b : FVec Ideal S64 .f32)
    (ii oi : IVec S27x131072 32) (n : Fin 524288) (c : Fin 64) :
    refVal (F := Ideal) x W g b ii oi (ix2 n c)
      = Cert.Spec.bn (Cert.Spec.varDev (Cert.Spec.scat (fun k j => Cert.Spec.wrap (oi (ix2 k j))) x W ii))
          (Cert.Spec.scat (fun k j => Cert.Spec.wrap (oi (ix2 k j))) x W ii)
          (fun c => g (ix1 c)) (fun c => b (ix1 c)) n c := by
  have hA : (fun n c => accVal x W ii oi 27 le_rfl (ix2 n c))
      = Cert.Spec.scat (fun k j => Cert.Spec.wrap (oi (ix2 k j))) x W ii := by
    funext n c
    exact accVal_apply x W ii oi n c 27 le_rfl
  rw [refVal, tailVal_apply, hA]

end Cert.ReferenceIdeal.Hand

end
-- ==== Proof.PreFacts.lean ====
import proofs.«428655_j7868380086734_3_alg».proof.Pre_finite_inputs
import proofs.«428655_j7868380086734_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.PreFacts

open Idealize.ShloMosaic Cert.Pre_finite_inputs Cert.Pre_finite_inputs.Gen

instance : Subsingleton S_.Idx := ⟨fun a b => funext fun d => d.elim0⟩

theorem real_of_abs_lt_top (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem nonneg_of_sge_zero (w : BitVec 32) (h : IntOp.cmpi .sge w 0#32 = 1#1) : 0 ≤ w.toInt := by
  rw [IntOp.cmpi_sge, show (0#32 : BitVec 32).toInt = 0 from by decide] at h
  exact h

theorem of_pre (x : FVec Ideal S524288x64 .f32) (W : FVec Ideal S27x64x64 .f32) (g b : FVec Ideal S64 .f32)
    (ii oi : IVec S27x131072 32)
    (h : Cert.Pre_finite_inputs.fn (F := Ideal) x W g b ii oi = fun _ => 1#1) :
    (∀ i, ∃ r : ℝ, x i = (r : EReal)) ∧ (∀ i, ∃ r : ℝ, W i = (r : EReal)) ∧ (∀ i, ∃ r : ℝ, g i = (r : EReal))
      ∧ (∀ i, ∃ r : ℝ, b i = (r : EReal)) ∧ (∀ i, 0 ≤ (oi i).toInt) := by
  have h0 := congrFun h ValueIdx.ix0
  dsimp only [Cert.Pre_finite_inputs.fn, Cert.Pre_finite_inputs.fn_part1] at h0
  simp only [andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · exact real_of_abs_lt_top (x i) (Host.reduce_andi_all _ _ _ _ _ h1 i)
  · exact real_of_abs_lt_top (W i) (Host.reduce_andi_all _ _ _ _ _ h2 i)
  · exact real_of_abs_lt_top (g i) (Host.reduce_andi_all _ _ _ _ _ h3 i)
  · exact real_of_abs_lt_top (b i) (Host.reduce_andi_all _ _ _ _ _ h4 i)
  · exact nonneg_of_sge_zero (oi i) (Host.reduce_andi_all _ _ _ _ _ h5 i)

end Cert.PreFacts

end
-- ==== Proof.Bridge.lean ====
import proofs.«428655_j7868380086734_3_alg».proof.Proof.KI.ValAcc
import proofs.«428655_j7868380086734_3_alg».proof.Proof.KI.ValBn
import proofs.«428655_j7868380086734_3_alg».proof.Proof.R.Idx
import proofs.«428655_j7868380086734_3_alg».proof.Proof.PreFacts
import proofs.«428655_j7868380086734_3_alg».proof.Proof.SpecFacts

noncomputable section

namespace Cert.Bridge

open Idealize.ShloMosaic Idealize.ShloMosaic.TcCoe Idealize.ShloMosaic.ValueIdx Idealize.SL.Sem
open Cert.KernelIdeal Cert.KernelIdeal.Hand

theorem result_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.Hand.refVal (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = W7 m c (Proc.devRef .tc main_v44) := by
  obtain ⟨hx, hW, -, -, hoi⟩ := Cert.PreFacts.of_pre _ _ _ _ _ _ hpre
  have hacc : accOf m c = Cert.Spec.scat (fun k j => argOut m c (ix2 k j)) (argX m c) (argW m c) (argIn m c) :=
    funext fun n => funext fun c'' => acc_apply m c n c''
  obtain ⟨a', ha'⟩ := Cert.Spec.scat_real (fun k j => argOut m c (ix2 k j)) (argX m c) (argW m c) (argIn m c) hx hW
  funext i
  obtain ⟨n, c', rfl⟩ : ∃ (n : Fin 524288) (c' : Fin 64), i = ix2 n c' := ⟨i 0, i 1, eq_ix2 i⟩
  refine (Cert.ReferenceIdeal.Hand.refVal_apply _ _ _ _ _ _ n c').trans ?_
  refine Eq.trans ?_ (result_apply m c n c').symm
  rw [hacc, Cert.Spec.scat_wrap _ hoi]
  exact congrFun (congrFun (Cert.Spec.bn_varDev_eq_varSq _ a' ha' _ _) n) c'

end Cert.Bridge

end
-- ==== Proof.lean ====
/- A sparse convolution followed by batch normalisation: for each of 27 offsets the rows of `x` named by `in_idx`
   are multiplied by that offset's weight slice and added into the rows named by `out_idx`; the sum is centred by its
   column mean over the 524288 rows, divided by the root of its column variance plus `ε`, scaled by `gamma`, shifted
   by `beta` and clamped below at zero. The kernel adds all offsets in one pass and takes the variance as the mean
   square minus the squared mean; the reference adds offset by offset and takes the mean squared deviation. Addition
   of extended reals is commutative and associative, an index that is not negative needs no wrapping, and on real
   entries the two variances are one number. -/
import proofs.«428655_j7868380086734_3_alg».proof.Defs
import proofs.«428655_j7868380086734_3_alg».proof.Proof.Gen.Kernel
import proofs.«428655_j7868380086734_3_alg».proof.Proof.Gen.KernelIdeal
import proofs.«428655_j7868380086734_3_alg».proof.Proof.Gen.ReferenceIdeal
import proofs.«428655_j7868380086734_3_alg».proof.Proof.Gen.Pre_finite_inputs
import proofs.«428655_j7868380086734_3_alg».proof.Proof.K.Run
import proofs.«428655_j7868380086734_3_alg».proof.Proof.KI.Run
import proofs.«428655_j7868380086734_3_alg».proof.Proof.R.Run
import proofs.«428655_j7868380086734_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.W7 m c (Proc.devRef .tc Cert.KernelIdeal.main_v44),
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
